-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v384) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S16x4096 : Shape := ⟨2, ![16, 4096]⟩
abbrev S16x1024 : Shape := ⟨2, ![16, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S16x1024 : S_.BroadcastsInDim S16x1024 (![] : Fin 0 → Fin S16x1024.rank)
  reducesTo_S16x1024_S_d0_1 : S16x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_arg5 : FVec F S16x1024 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S16x1024 .f32 := Host.absf main_arg5
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg1 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 16#32
  let main_v28 : IVec S4096 32 := broadcastInDim S4096 ![] bcast_S_S4096 main_c_10
  let main_v29 : IVec S4096 1 := cmpi .slt main_arg1 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  main_v31

def fn {F : FTy → Type} [FloatOps F] (main_arg0 : FVec F S4096x1024 .f32) (main_arg1 : IVec S4096 32) (main_arg2 : FVec F S16x4096x1024 .f32) (main_arg3 : FVec F S16x1024x4096 .f32) (main_arg4 : FVec F S16x4096 .f32) (main_arg5 : FVec F S16x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x4096x1024 .f32 := Host.absf main_arg2
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x1024x4096 .f32 := Host.absf main_arg3
  let main_cst_2 : FVec F S_ .f32 := constant S_ .f32 0x7F800000#32
  let main_v10 : FVec F S16x1024x4096 .f32 := broadcastInDim S16x1024x4096 ![] bcast_S_S16x1024x4096 main_cst_2
  let main_v11 : IVec S16x1024x4096 1 := cmpf .olt main_v9 main_v10
  let main_c_3 : IVec S_ 1 := constantI S_ 1 1#1
  let main_v12 : IVec S_ 1 := (fun x v => Host.reduce IntOp.andi x v reducesTo_S16x1024x4096_S_d0_1_2 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg1 main_arg5 main_v13 main_v16
-- ==== Kernel.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S16x4096 : Shape := ⟨2, ![16, 4096]⟩
abbrev S16x1024 : Shape := ⟨2, ![16, 1024]⟩
abbrev S16 : Shape := ⟨1, ![16]⟩
abbrev S1x4096 : Shape := ⟨2, ![1, 4096]⟩
abbrev S16x1 : Shape := ⟨2, ![16, 1]⟩
abbrev S_ : Shape := ⟨0, ![]⟩
abbrev S6144 : Shape := ⟨1, ![6144]⟩
abbrev S6144x1 : Shape := ⟨2, ![6144, 1]⟩
abbrev S1x16 : Shape := ⟨2, ![1, 16]⟩
abbrev S6144x16 : Shape := ⟨2, ![6144, 16]⟩
abbrev S1 : Shape := ⟨1, ![1]⟩
abbrev S1x1 : Shape := ⟨2, ![1, 1]⟩
abbrev S48 : Shape := ⟨1, ![48]⟩
abbrev S48x1 : Shape := ⟨2, ![48, 1]⟩
abbrev S6144x1024 : Shape := ⟨2, ![6144, 1024]⟩
abbrev S16x1x4096 : Shape := ⟨3, ![16, 1, 4096]⟩
abbrev S16x1x1024 : Shape := ⟨3, ![16, 1, 1024]⟩
abbrev S128x1024 : Shape := ⟨2, ![128, 1024]⟩
abbrev S1x4096x1024 : Shape := ⟨3, ![1, 4096, 1024]⟩
abbrev S1x1024x4096 : Shape := ⟨3, ![1, 1024, 4096]⟩
abbrev S1x1x4096 : Shape := ⟨3, ![1, 1, 4096]⟩
abbrev S1x1x1024 : Shape := ⟨3, ![1, 1, 1024]⟩
abbrev S1024x4096 : Shape := ⟨2, ![1024, 4096]⟩
abbrev S1x1024 : Shape := ⟨2, ![1, 1024]⟩
abbrev S128x4096 : Shape := ⟨2, ![128, 4096]⟩
abbrev S4097x1024 : Shape := ⟨2, ![4097, 1024]⟩

abbrev nBuf : Space → Nat
  | .hbm => 224
  | .vmem => 12
  | .smem => 1
  | _ => 0

abbrev hbmTy0_0 (i : Nat) : BufTy := match i % 128 with
  | 0 => ⟨S4096x1024, .f32⟩
  | 1 => ⟨S4096, .i32⟩
  | 2 => ⟨S16x4096x1024, .f32⟩
  | 3 => ⟨S16x1024x4096, .f32⟩
  | 4 => ⟨S16x4096, .f32⟩
  | 5 => ⟨S16x1024, .f32⟩
  | 6 => ⟨S4096, .i32⟩
  | 7 => ⟨S4096, .i32⟩
  | 8 => ⟨S4096, .i32⟩
  | 9 => ⟨S16, .i32⟩
  | 10 => ⟨S1x4096, .i32⟩
  | 11 => ⟨S16x1, .i32⟩
  | 12 => ⟨S16x4096, .i32⟩
  | 13 => ⟨S16x4096, .i32⟩
  | 14 => ⟨S16x4096, .i1⟩
  | 15 => ⟨S16x4096, .i32⟩
  | 16 => ⟨S_, .i32⟩
  | 17 => ⟨S16, .i32⟩
  | 18 => ⟨S_, .i32⟩
  | 19 => ⟨S_, .i32⟩
  | 20 => ⟨S16, .i32⟩
  | 21 => ⟨S16, .i32⟩
  | 22 => ⟨S_, .i32⟩
  | 23 => ⟨S16, .i32⟩
  | 24 => ⟨S16, .i32⟩
  | 25 => ⟨S_, .i32⟩
  | 26 => ⟨S_, .i32⟩
  | 27 => ⟨S16, .i32⟩
  | 28 => ⟨S16, .i32⟩
  | 29 => ⟨S16, .i32⟩
  | 30 => ⟨S_, .i32⟩
  | 31 => ⟨S16, .i32⟩
  | 32 => ⟨S16, .i1⟩
  | 33 => ⟨S16, .i32⟩
  | 34 => ⟨S16, .i32⟩
  | 35 => ⟨S_, .i32⟩
  | 36 => ⟨S16, .i32⟩
  | 37 => ⟨S16, .i1⟩
  | 38 => ⟨S16, .i1⟩
  | 39 => ⟨S_, .i32⟩
  | 40 => ⟨S16, .i32⟩
  | 41 => ⟨S16, .i32⟩
  | 42 => ⟨S16, .i32⟩
  | 43 => ⟨S_, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S6144, .i32⟩
  | 51 => ⟨S6144x1, .i32⟩
  | 52 => ⟨S1x16, .i32⟩
  | 53 => ⟨S6144x16, .i32⟩
  | 54 => ⟨S6144x16, .i32⟩
  | 55 => ⟨S6144x16, .i1⟩
  | 56 => ⟨S6144x16, .i32⟩
  | 57 => ⟨S_, .i32⟩
  | 58 => ⟨S6144, .i32⟩
  | 59 => ⟨S_, .i32⟩
  | 60 => ⟨S6144, .i32⟩
  | 61 => ⟨S6144, .i32⟩
  | 62 => ⟨S_, .i32⟩
  | 63 => ⟨S_, .i32⟩
  | 64 => ⟨S_, .i32⟩
  | 65 => ⟨S6144, .i32⟩
  | 66 => ⟨S6144, .i32⟩
  | 67 => ⟨S_, .i32⟩
  | 68 => ⟨S6144, .i32⟩
  | 69 => ⟨S6144, .i32⟩
  | 70 => ⟨S_, .i32⟩
  | 71 => ⟨S6144, .i32⟩
  | 72 => ⟨S6144, .i1⟩
  | 73 => ⟨S_, .i32⟩
  | 74 => ⟨S6144, .i32⟩
  | 75 => ⟨S6144, .i32⟩
  | 76 => ⟨S6144, .i32⟩
  | 77 => ⟨S6144x1, .i32⟩
  | 78 => ⟨S1, .i32⟩
  | 79 => ⟨S_, .i32⟩
  | 80 => ⟨S6144x1, .i32⟩
  | 81 => ⟨S6144x1, .i1⟩
  | 82 => ⟨S1x1, .i32⟩
  | 83 => ⟨S6144x1, .i32⟩
  | 84 => ⟨S6144x1, .i1⟩
  | 85 => ⟨S6144x1, .i1⟩
  | 86 => ⟨S_, .i1⟩
  | 87 => ⟨S6144, .i1⟩
  | 88 => ⟨S6144, .i32⟩
  | 89 => ⟨S_, .i32⟩
  | 90 => ⟨S6144, .i32⟩
  | 91 => ⟨S6144, .i32⟩
  | 92 => ⟨S6144, .i32⟩
  | 93 => ⟨S_, .i32⟩
  | 94 => ⟨S6144, .i32⟩
  | 95 => ⟨S6144, .i1⟩
  | 96 => ⟨S_, .i32⟩
  | 97 => ⟨S6144, .i32⟩
  | 98 => ⟨S6144, .i32⟩
  | 99 => ⟨S6144, .i32⟩
  | 100 => ⟨S6144x1, .i32⟩
  | 101 => ⟨S1, .i32⟩
  | 102 => ⟨S_, .i32⟩
  | 103 => ⟨S6144x1, .i32⟩
  | 104 => ⟨S6144x1, .i1⟩
  | 105 => ⟨S1x1, .i32⟩
  | 106 => ⟨S6144x1, .i32⟩
  | 107 => ⟨S6144x1, .i1⟩
  | 108 => ⟨S6144x1, .i1⟩
  | 109 => ⟨S_, .i1⟩
  | 110 => ⟨S6144, .i1⟩
  | 111 => ⟨S6144, .i32⟩
  | 112 => ⟨S_, .i32⟩
  | 113 => ⟨S6144, .i32⟩
  | 114 => ⟨S6144, .i32⟩
  | 115 => ⟨S6144, .i1⟩
  | 116 => ⟨S_, .i32⟩
  | 117 => ⟨S6144, .i32⟩
  | 118 => ⟨S6144, .i1⟩
  | 119 => ⟨S_, .i32⟩
  | 120 => ⟨S6144, .i32⟩
  | 121 => ⟨S6144, .i32⟩
  | 122 => ⟨S6144, .i32⟩
  | 123 => ⟨S6144x1, .i32⟩
  | 124 => ⟨S1, .i32⟩
  | 125 => ⟨S_, .i32⟩
  | 126 => ⟨S6144x1, .i32⟩
  | 127 => ⟨S6144x1, .i1⟩
  | _ => ⟨S4096x1024, .f32⟩

abbrev hbmTy0_1 (i : Nat) : BufTy := match i % 128 with
  | 0 => ⟨S1x1, .i32⟩
  | 1 => ⟨S6144x1, .i32⟩
  | 2 => ⟨S6144x1, .i1⟩
  | 3 => ⟨S6144x1, .i1⟩
  | 4 => ⟨S_, .i1⟩
  | 5 => ⟨S6144, .i1⟩
  | 6 => ⟨S6144, .i32⟩
  | 7 => ⟨S_, .i32⟩
  | 8 => ⟨S6144, .i32⟩
  | 9 => ⟨S6144, .i32⟩
  | 10 => ⟨S6144, .i32⟩
  | 11 => ⟨S_, .i32⟩
  | 12 => ⟨S_, .i32⟩
  | 13 => ⟨S_, .i32⟩
  | 14 => ⟨S6144, .i32⟩
  | 15 => ⟨S6144, .i32⟩
  | 16 => ⟨S_, .i32⟩
  | 17 => ⟨S6144, .i32⟩
  | 18 => ⟨S6144, .i32⟩
  | 19 => ⟨S_, .i32⟩
  | 20 => ⟨S6144, .i32⟩
  | 21 => ⟨S6144, .i1⟩
  | 22 => ⟨S_, .i32⟩
  | 23 => ⟨S6144, .i32⟩
  | 24 => ⟨S6144, .i32⟩
  | 25 => ⟨S6144, .i32⟩
  | 26 => ⟨S6144x1, .i32⟩
  | 27 => ⟨S1, .i32⟩
  | 28 => ⟨S_, .i32⟩
  | 29 => ⟨S6144x1, .i32⟩
  | 30 => ⟨S6144x1, .i1⟩
  | 31 => ⟨S1x1, .i32⟩
  | 32 => ⟨S6144x1, .i32⟩
  | 33 => ⟨S6144x1, .i1⟩
  | 34 => ⟨S6144x1, .i1⟩
  | 35 => ⟨S_, .i1⟩
  | 36 => ⟨S6144, .i1⟩
  | 37 => ⟨S6144, .i32⟩
  | 38 => ⟨S_, .i32⟩
  | 39 => ⟨S6144, .i32⟩
  | 40 => ⟨S6144, .i32⟩
  | 41 => ⟨S_, .i32⟩
  | 42 => ⟨S6144, .i32⟩
  | 43 => ⟨S6144, .i32⟩
  | 44 => ⟨S48, .i32⟩
  | 45 => ⟨S_, .i32⟩
  | 46 => ⟨S48, .i32⟩
  | 47 => ⟨S48, .i32⟩
  | 48 => ⟨S_, .i32⟩
  | 49 => ⟨S48, .i32⟩
  | 50 => ⟨S48, .i1⟩
  | 51 => ⟨S_, .i32⟩
  | 52 => ⟨S48, .i32⟩
  | 53 => ⟨S48, .i32⟩
  | 54 => ⟨S48, .i32⟩
  | 55 => ⟨S48x1, .i32⟩
  | 56 => ⟨S1, .i32⟩
  | 57 => ⟨S_, .i32⟩
  | 58 => ⟨S48x1, .i32⟩
  | 59 => ⟨S48x1, .i1⟩
  | 60 => ⟨S1x1, .i32⟩
  | 61 => ⟨S48x1, .i32⟩
  | 62 => ⟨S48x1, .i1⟩
  | 63 => ⟨S48x1, .i1⟩
  | 64 => ⟨S_, .i1⟩
  | 65 => ⟨S48, .i1⟩
  | 66 => ⟨S48, .i32⟩
  | 67 => ⟨S_, .i32⟩
  | 68 => ⟨S48, .i32⟩
  | 69 => ⟨S_, .i32⟩
  | 70 => ⟨S6144, .i32⟩
  | 71 => ⟨S6144, .i1⟩
  | 72 => ⟨S_, .i32⟩
  | 73 => ⟨S6144, .i32⟩
  | 74 => ⟨S6144, .i32⟩
  | 75 => ⟨S6144, .i32⟩
  | 76 => ⟨S6144x1, .i32⟩
  | 77 => ⟨S6144x1024, .f32⟩
  | 78 => ⟨S6144x1024, .bf16⟩
  | 79 => ⟨S16x4096x1024, .bf16⟩
  | 80 => ⟨S16x1024x4096, .bf16⟩
  | 81 => ⟨S16x1x4096, .f32⟩
  | 82 => ⟨S16x1x1024, .f32⟩
  | 83 => ⟨S6144x1024, .f32⟩
  | 84 => ⟨S_, .f32⟩
  | 85 => ⟨S4097x1024, .f32⟩
  | 86 => ⟨S_, .i32⟩
  | 87 => ⟨S6144, .i32⟩
  | 88 => ⟨S6144, .i1⟩
  | 89 => ⟨S_, .i32⟩
  | 90 => ⟨S6144, .i32⟩
  | 91 => ⟨S6144, .i32⟩
  | 92 => ⟨S6144, .i32⟩
  | 93 => ⟨S6144x1, .i32⟩
  | 94 => ⟨S4097x1024, .f32⟩
  | 95 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x4096, .bf16⟩
  | .local _ .vmem, ⟨5, _⟩ => ⟨S1x1024x4096, .bf16⟩
  | .local _ .vmem, ⟨6, _⟩ => ⟨S1x1x4096, .f32⟩
  | .local _ .vmem, ⟨7, _⟩ => ⟨S1x1x4096, .f32⟩
  | .local _ .vmem, ⟨8, _⟩ => ⟨S1x1x1024, .f32⟩
  | .local _ .vmem, ⟨9, _⟩ => ⟨S1x1x1024, .f32⟩
  | .local _ .vmem, ⟨10, _⟩ => ⟨S128x1024, .f32⟩
  | .local _ .vmem, ⟨11, _⟩ => ⟨S128x1024, .f32⟩
  | .local _ .smem, ⟨0, _⟩ => ⟨S48, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_call1_call0_c : Ref sig .tc := ⟨.hbm, 18, rfl⟩
abbrev main_call1_call0_v0 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_c : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_0 : Ref sig .tc := ⟨.hbm, 39, rfl⟩
abbrev main_call2_v12 : Ref sig .tc := ⟨.hbm, 40, rfl⟩
abbrev main_call2_v13 : Ref sig .tc := ⟨.hbm, 41, rfl⟩
abbrev main_v13 : Ref sig .tc := ⟨.hbm, 42, rfl⟩
abbrev main_call3_call0_c : Ref sig .tc := ⟨.hbm, 43, rfl⟩
abbrev main_call3_call0_v0 : Ref sig .tc := ⟨.hbm, 44, rfl⟩
abbrev main_v14 : Ref sig .tc := ⟨.hbm, 45, rfl⟩
abbrev main_v15 : Ref sig .tc := ⟨.hbm, 46, rfl⟩
abbrev main_c_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_3 : Ref sig .tc := ⟨.hbm, 57, rfl⟩
abbrev main_v25 : Ref sig .tc := ⟨.hbm, 58, rfl⟩
abbrev main_c_4 : Ref sig .tc := ⟨.hbm, 59, rfl⟩
abbrev main_v26 : Ref sig .tc := ⟨.hbm, 60, rfl⟩
abbrev main_v27 : Ref sig .tc := ⟨.hbm, 61, rfl⟩
abbrev main_c_5 : Ref sig .tc := ⟨.hbm, 62, rfl⟩
abbrev main_c_6 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_v28 : Ref sig .tc := ⟨.hbm, 69, rfl⟩
abbrev main_call5_c : Ref sig .tc := ⟨.hbm, 70, rfl⟩
abbrev main_call5_v0 : Ref sig .tc := ⟨.hbm, 71, rfl⟩
abbrev main_call5_v1 : Ref sig .tc := ⟨.hbm, 72, rfl⟩
abbrev main_call5_c_0 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_c_1 : Ref sig .tc := ⟨.hbm, 78, rfl⟩
abbrev main_call5_c_2 : Ref sig .tc := ⟨.hbm, 79, rfl⟩
abbrev main_call5_v6 : Ref sig .tc := ⟨.hbm, 80, rfl⟩
abbrev main_call5_v7 : Ref sig .tc := ⟨.hbm, 81, rfl⟩
abbrev main_call5_v8 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_c_3 : Ref sig .tc := ⟨.hbm, 86, rfl⟩
abbrev main_call5_v12 : Ref sig .tc := ⟨.hbm, 87, rfl⟩
abbrev main_call5_v13 : Ref sig .tc := ⟨.hbm, 88, rfl⟩
abbrev main_call5_c_4 : Ref sig .tc := ⟨.hbm, 89, rfl⟩
abbrev main_call5_v14 : Ref sig .tc := ⟨.hbm, 90, rfl⟩
abbrev main_v29 : Ref sig .tc := ⟨.hbm, 91, rfl⟩
abbrev main_v30 : Ref sig .tc := ⟨.hbm, 92, rfl⟩
abbrev main_call6_c : Ref sig .tc := ⟨.hbm, 93, rfl⟩
abbrev main_call6_v0 : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_c_1 : Ref sig .tc := ⟨.hbm, 101, rfl⟩
abbrev main_call6_c_2 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_c_3 : Ref sig .tc := ⟨.hbm, 109, rfl⟩
abbrev main_call6_v12 : Ref sig .tc := ⟨.hbm, 110, rfl⟩
abbrev main_call6_v13 : Ref sig .tc := ⟨.hbm, 111, rfl⟩
abbrev main_call6_c_4 : Ref sig .tc := ⟨.hbm, 112, rfl⟩
abbrev main_call6_v14 : Ref sig .tc := ⟨.hbm, 113, rfl⟩
abbrev main_v31 : Ref sig .tc := ⟨.hbm, 114, rfl⟩
abbrev main_v32 : Ref sig .tc := ⟨.hbm, 115, rfl⟩
abbrev main_call7_c : Ref sig .tc := ⟨.hbm, 116, rfl⟩
abbrev main_call7_v0 : Ref sig .tc := ⟨.hbm, 117, rfl⟩
abbrev main_call7_v1 : Ref sig .tc := ⟨.hbm, 118, rfl⟩
abbrev main_call7_c_0 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_call7_v5 : Ref sig .tc := ⟨.hbm, 123, rfl⟩
abbrev main_call7_c_1 : Ref sig .tc := ⟨.hbm, 124, rfl⟩
abbrev main_call7_c_2 : Ref sig .tc := ⟨.hbm, 125, rfl⟩
abbrev main_call7_v6 : Ref sig .tc := ⟨.hbm, 126, rfl⟩
abbrev main_call7_v7 : Ref sig .tc := ⟨.hbm, 127, rfl⟩
abbrev main_call7_v8 : Ref sig .tc := ⟨.hbm, 128, rfl⟩
abbrev main_call7_v9 : Ref sig .tc := ⟨.hbm, 129, rfl⟩
abbrev main_call7_v10 : Ref sig .tc := ⟨.hbm, 130, rfl⟩
abbrev main_call7_v11 : Ref sig .tc := ⟨.hbm, 131, rfl⟩
abbrev main_call7_c_3 : Ref sig .tc := ⟨.hbm, 132, rfl⟩
abbrev main_call7_v12 : Ref sig .tc := ⟨.hbm, 133, rfl⟩
abbrev main_call7_v13 : Ref sig .tc := ⟨.hbm, 134, rfl⟩
abbrev main_call7_c_4 : Ref sig .tc := ⟨.hbm, 135, rfl⟩
abbrev main_call7_v14 : Ref sig .tc := ⟨.hbm, 136, rfl⟩
abbrev main_v33 : Ref sig .tc := ⟨.hbm, 137, rfl⟩
abbrev main_v34 : Ref sig .tc := ⟨.hbm, 138, rfl⟩
abbrev main_c_7 : Ref sig .tc := ⟨.hbm, 139, rfl⟩
abbrev main_c_8 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_v35 : Ref sig .tc := ⟨.hbm, 146, rfl⟩
abbrev main_call9_c : Ref sig .tc := ⟨.hbm, 147, rfl⟩
abbrev main_call9_v0 : Ref sig .tc := ⟨.hbm, 148, rfl⟩
abbrev main_call9_v1 : Ref sig .tc := ⟨.hbm, 149, rfl⟩
abbrev main_call9_c_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_v5 : Ref sig .tc := ⟨.hbm, 154, rfl⟩
abbrev main_call9_c_1 : Ref sig .tc := ⟨.hbm, 155, rfl⟩
abbrev main_call9_c_2 : Ref sig .tc := ⟨.hbm, 156, rfl⟩
abbrev main_call9_v6 : Ref sig .tc := ⟨.hbm, 157, rfl⟩
abbrev main_call9_v7 : Ref sig .tc := ⟨.hbm, 158, rfl⟩
abbrev main_call9_v8 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_c_3 : Ref sig .tc := ⟨.hbm, 163, rfl⟩
abbrev main_call9_v12 : Ref sig .tc := ⟨.hbm, 164, rfl⟩
abbrev main_call9_v13 : Ref sig .tc := ⟨.hbm, 165, rfl⟩
abbrev main_call9_c_4 : Ref sig .tc := ⟨.hbm, 166, rfl⟩
abbrev main_call9_v14 : Ref sig .tc := ⟨.hbm, 167, rfl⟩
abbrev main_v36 : Ref sig .tc := ⟨.hbm, 168, rfl⟩
abbrev main_c_9 : Ref sig .tc := ⟨.hbm, 169, rfl⟩
abbrev main_call10_v0 : Ref sig .tc := ⟨.hbm, 170, rfl⟩
abbrev main_v37 : Ref sig .tc := ⟨.hbm, 171, rfl⟩
abbrev main_v38 : Ref sig .tc := ⟨.hbm, 172, rfl⟩
abbrev main_c_10 : Ref sig .tc := ⟨.hbm, 173, rfl⟩
abbrev main_v39 : Ref sig .tc := ⟨.hbm, 174, rfl⟩
abbrev main_v40 : Ref sig .tc := ⟨.hbm, 175, rfl⟩
abbrev main_call11_c : Ref sig .tc := ⟨.hbm, 176, rfl⟩
abbrev main_call11_v0 : Ref sig .tc := ⟨.hbm, 177, rfl⟩
abbrev main_call11_v1 : Ref sig .tc := ⟨.hbm, 178, rfl⟩
abbrev main_call11_c_0 : Ref sig .tc := ⟨.hbm, 179, rfl⟩
abbrev main_call11_v2 : Ref sig .tc := ⟨.hbm, 180, rfl⟩
abbrev main_call11_v3 : Ref sig .tc := ⟨.hbm, 181, rfl⟩
abbrev main_call11_v4 : Ref sig .tc := ⟨.hbm, 182, rfl⟩
abbrev main_call11_v5 : Ref sig .tc := ⟨.hbm, 183, rfl⟩
abbrev main_call11_c_1 : Ref sig .tc := ⟨.hbm, 184, rfl⟩
abbrev main_call11_c_2 : Ref sig .tc := ⟨.hbm, 185, rfl⟩
abbrev main_call11_v6 : Ref sig .tc := ⟨.hbm, 186, rfl⟩
abbrev main_call11_v7 : Ref sig .tc := ⟨.hbm, 187, rfl⟩
abbrev main_call11_v8 : Ref sig .tc := ⟨.hbm, 188, rfl⟩
abbrev main_call11_v9 : Ref sig .tc := ⟨.hbm, 189, rfl⟩
abbrev main_call11_v10 : Ref sig .tc := ⟨.hbm, 190, rfl⟩
abbrev main_call11_v11 : Ref sig .tc := ⟨.hbm, 191, rfl⟩
abbrev main_call11_c_3 : Ref sig .tc := ⟨.hbm, 192, rfl⟩
abbrev main_call11_v12 : Ref sig .tc := ⟨.hbm, 193, rfl⟩
abbrev main_call11_v13 : Ref sig .tc := ⟨.hbm, 194, rfl⟩
abbrev main_call11_c_4 : Ref sig .tc := ⟨.hbm, 195, rfl⟩
abbrev main_call11_v14 : Ref sig .tc := ⟨.hbm, 196, rfl⟩
abbrev main_c_11 : Ref sig .tc := ⟨.hbm, 197, rfl⟩
abbrev main_v42 : Ref sig .tc := ⟨.hbm, 198, rfl⟩
abbrev main_v43 : Ref sig .tc := ⟨.hbm, 199, rfl⟩
abbrev main_c_12 : Ref sig .tc := ⟨.hbm, 200, rfl⟩
abbrev main_v44 : Ref sig .tc := ⟨.hbm, 201, rfl⟩
abbrev main_v45 : Ref sig .tc := ⟨.hbm, 202, rfl⟩
abbrev main_v46 : Ref sig .tc := ⟨.hbm, 203, rfl⟩
abbrev main_v47 : Ref sig .tc := ⟨.hbm, 204, rfl⟩
abbrev main_v48 : Ref sig .tc := ⟨.hbm, 205, rfl⟩
abbrev main_v49 : Ref sig .tc := ⟨.hbm, 206, rfl⟩
abbrev main_v50 : Ref sig .tc := ⟨.hbm, 207, rfl⟩
abbrev main_v51 : Ref sig .tc := ⟨.hbm, 208, rfl⟩
abbrev main_v52 : Ref sig .tc := ⟨.hbm, 209, rfl⟩
abbrev main_v53 : Ref sig .tc := ⟨.hbm, 210, rfl⟩
abbrev main_v54 : Ref sig .tc := ⟨.hbm, 211, rfl⟩
abbrev main_cst : Ref sig .tc := ⟨.hbm, 212, rfl⟩
abbrev main_v55 : Ref sig .tc := ⟨.hbm, 213, rfl⟩
abbrev main_c_13 : Ref sig .tc := ⟨.hbm, 214, rfl⟩
abbrev main_v56 : Ref sig .tc := ⟨.hbm, 215, rfl⟩
abbrev main_v57 : Ref sig .tc := ⟨.hbm, 216, rfl⟩
abbrev main_c_14 : Ref sig .tc := ⟨.hbm, 217, rfl⟩
abbrev main_v58 : Ref sig .tc := ⟨.hbm, 218, rfl⟩
abbrev main_v59 : Ref sig .tc := ⟨.hbm, 219, rfl⟩
abbrev main_v60 : Ref sig .tc := ⟨.hbm, 220, rfl⟩
abbrev main_v61 : Ref sig .tc := ⟨.hbm, 221, rfl⟩
abbrev main_v62 : Ref sig .tc := ⟨.hbm, 222, rfl⟩
abbrev main_v63 : Ref sig .tc := ⟨.hbm, 223, rfl⟩
abbrev main_v41 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  natLt_1_32 : 1 < 32
  reducesTo_S16x4096_S16_d1 : S16x4096.ReducesTo [1] S16
  h_S_ : 0 < S_.numel
  bcast_S_S_ : S_.BroadcastsInDim S_ (![] : Fin 0 → Fin S_.rank)
  reduceWindows_S16_S16_w16s1p15_0 : S16.ReduceWindows (![16] : Fin 1 → Nat) ![1] ![15] ![0] S16
  bcast_S_S16 : S_.BroadcastsInDim S16 (![] : Fin 0 → Fin S16.rank)
  bcast_S6144_S6144x1_0 : S6144.BroadcastsInDim S6144x1 (![0] : Fin 1 → Fin S6144x1.rank)
  bcast_S16_S1x16_1 : S16.BroadcastsInDim S1x16 (![1] : Fin 1 → Fin S1x16.rank)
  bcast_S6144x1_S6144x16_0_1 : S6144x1.BroadcastsInDim S6144x16 (![0, 1] : Fin 2 → Fin S6144x16.rank)
  bcast_S1x16_S6144x16_0_1 : S1x16.BroadcastsInDim S6144x16 (![0, 1] : Fin 2 → Fin S6144x16.rank)
  reducesTo_S6144x16_S6144_d1 : S6144x16.ReducesTo [1] S6144
  bcast_S_S6144 : S_.BroadcastsInDim S6144 (![] : Fin 0 → Fin S6144.rank)
  bcast_S_S6144x1 : S_.BroadcastsInDim S6144x1 (![] : Fin 0 → Fin S6144x1.rank)
  bcast_S1_S1x1_1 : S1.BroadcastsInDim S1x1 (![1] : Fin 1 → Fin S1x1.rank)
  bcast_S1x1_S6144x1_0_1 : S1x1.BroadcastsInDim S6144x1 (![0, 1] : Fin 2 → Fin S6144x1.rank)
  reducesTo_S6144x1_S6144_d1 : S6144x1.ReducesTo [1] S6144
  bcast_S_S48 : S_.BroadcastsInDim S48 (![] : Fin 0 → Fin S48.rank)
  bcast_S48_S48x1_0 : S48.BroadcastsInDim S48x1 (![0] : Fin 1 → Fin S48x1.rank)
  bcast_S_S48x1 : S_.BroadcastsInDim S48x1 (![] : Fin 0 → Fin S48x1.rank)
  bcast_S1x1_S48x1_0_1 : S1x1.BroadcastsInDim S48x1 (![0, 1] : Fin 2 → Fin S48x1.rank)
  reducesTo_S48x1_S48_d1 : S48x1.ReducesTo [1] S48
  bitsLt_bf16_f32 : FTy.bits .bf16 < FTy.bits .f32
  shapeCasts_S16x4096_S16x1x4096 : S16x4096.ShapeCasts S16x1x4096
  shapeCasts_S16x1024_S16x1x1024 : S16x1024.ShapeCasts S16x1x1024
  numel1_S1 : S1.numel = 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x4096_S128x4096 : S1x4096.Broadcasts S128x4096
  broadcasts_S1x1024_S128x1024 : S1x1024.Broadcasts S128x1024
  bcast_S_S4097x1024 : S_.BroadcastsInDim S4097x1024 (![] : Fin 0 → Fin S4097x1024.rank)
  slices_S4097x1024_S4096x1024_0_0 : S4097x1024.Slices ![0, 0] S4096x1024
  gather_S16_S6144x1_S6144_n_0_n_n_0_1_1_wf : GatherDims.WF S16 S6144x1 S6144 [] [0] [] [0] [] 1 ![1]
  gather_S4096_S6144x1_S6144_n_0_n_n_0_1_1_wf : GatherDims.WF S4096 S6144x1 S6144 [] [0] [] [0] [] 1 ![1]
  gather_S6144_S48x1_S48_n_0_n_n_0_1_1_wf : GatherDims.WF S6144 S48x1 S48 [] [0] [] [0] [] 1 ![1]
  gather_S4096x1024_S6144x1_S6144x1024_1_0_n_n_0_1_11024_wf : GatherDims.WF S4096x1024 S6144x1 S6144x1024 [1] [0] [] [0] [] 1 ![1, 1024]
  dot_S128x1024_S4096x1024_S128x4096_1_1_0_0_n_n_wf : DotDims.WF S128x1024 S4096x1024 S128x4096 [1] [1] [0] [0] [] []
  dot_S128x4096_S1024x4096_S128x1024_1_1_0_0_n_n_wf : DotDims.WF S128x4096 S1024x4096 S128x1024 [1] [1] [0] [0] [] []
  scatter_S4097x1024_S6144x1_S6144x1024_1_0_0_1_wf : ScatterDims.WF S4097x1024 S6144x1 S6144x1024 [1] [0] [0] 1
  hrank0 : 0 < grid0.rank
  k0_off1_inb : ∀ i : grid0.Coords, ∀ a, (k0_off1 i) a + S1.size a ≤ S48.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S6144x1024.size a
  hwx0_0 : ∀ i : grid0.Coords, EltTy.bits .bf16 = 32 ∨ (Rect.block (s := S6144x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S6144x1024.size a
  hwx0_5 : ∀ i : grid0.Coords, EltTy.bits .f32 = 32 ∨ (Rect.block (s := S6144x1024) S128x1024.size (cc0_transform_5 i) (hinb0_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16_S6144x1_S6144_n_0_n_n_0_1_1 : GatherDims S16 S6144x1 S6144 where
  offsetDims := []
  collapsedSliceDims := [0]
  operandBatchingDims := []
  startIndicesBatchingDims := []
  startIndexMap := [0]
  indexVectorDim := 1
  sliceSizes := ![1]
  wf := gather_S16_S6144x1_S6144_n_0_n_n_0_1_1_wf
def gather_S4096_S6144x1_S6144_n_0_n_n_0_1_1 : GatherDims S4096 S6144x1 S6144 where
  offsetDims := []
  collapsedSliceDims := [0]
  operandBatchingDims := []
  startIndicesBatchingDims := []
  startIndexMap := [0]
  indexVectorDim := 1
  sliceSizes := ![1]
  wf := gather_S4096_S6144x1_S6144_n_0_n_n_0_1_1_wf
def gather_S6144_S48x1_S48_n_0_n_n_0_1_1 : GatherDims S6144 S48x1 S48 where
  offsetDims := []
  collapsedSliceDims := [0]
  operandBatchingDims := []
  startIndicesBatchingDims := []
  startIndexMap := [0]
  indexVectorDim := 1
  sliceSizes := ![1]
  wf := gather_S6144_S48x1_S48_n_0_n_n_0_1_1_wf
def gather_S4096x1024_S6144x1_S6144x1024_1_0_n_n_0_1_11024 : GatherDims S4096x1024 S6144x1 S6144x1024 where
  offsetDims := [1]
  collapsedSliceDims := [0]
  operandBatchingDims := []
  startIndicesBatchingDims := []
  startIndexMap := [0]
  indexVectorDim := 1
  sliceSizes := ![1, 1024]
  wf := gather_S4096x1024_S6144x1_S6144x1024_1_0_n_n_0_1_11024_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def scatter_S4097x1024_S6144x1_S6144x1024_1_0_0_1 : ScatterDims S4097x1024 S6144x1 S6144x1024 where
  updateWindowDims := [1]
  insertedWindowDims := [0]
  scatterDimsToOperandDims := [0]
  indexVectorDim := 1
  wf := scatter_S4097x1024_S6144x1_S6144x1024_1_0_0_1_wf

abbrev spec0_0 : Pipeline.WinSpec sig grid0.rank :=
  Pipeline.WinSpec.ofSpec (Memref.whole main_v49) S128x1024.size reads0_0 false false 2 stage0_0 sem0_0 nbuf0_0 hstage0_0

abbrev spec0_1 : Pipeline.WinSpec sig grid0.rank :=
  Pipeline.WinSpec.ofSpec (Memref.whole main_v50) S1x4096x1024.size reads0_1 false false 2 stage0_1 sem0_1 nbuf0_1 hstage0_1

abbrev spec0_2 : Pipeline.WinSpec sig grid0.rank :=
  Pipeline.WinSpec.ofSpec (Memref.whole main_v51) S1x1024x4096.size reads0_2 false false 2 stage0_2 sem0_2 nbuf0_2 hstage0_2

abbrev spec0_3 : Pipeline.WinSpec sig grid0.rank :=
  Pipeline.WinSpec.ofSpec (Memref.whole main_v52) S1x1x4096.size reads0_3 false false 2 stage0_3 sem0_3 nbuf0_3 hstage0_3

abbrev spec0_4 : Pipeline.WinSpec sig grid0.rank :=
  Pipeline.WinSpec.ofSpec (Memref.whole main_v53) S1x1x1024.size reads0_4 false false 2 stage0_4 sem0_4 nbuf0_4 hstage0_4

abbrev spec0_5 : Pipeline.WinSpec sig grid0.rank :=
  Pipeline.WinSpec.ofSpec (Memref.whole main_v54) S128x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x4096x1024.size a ≤ S16x4096x1024.size a), EltTy.bits .bf16 = 32 ∨ (Rect.block (s := S16x4096x1024) S1x4096x1024.size (cc0_transform_1 k0_off1_inb numel1_S1 pf i) h).WholeWords (EltTy.packing .bf16)) ∧
  (∀ i : grid0.Coords, ∃ h : (∀ a, (cc0_transform_2 k0_off1_inb numel1_S1 pf i a + 1) * S1x1024x4096.size a ≤ S16x1024x4096.size a), EltTy.bits .bf16 = 32 ∨ (Rect.block (s := S16x1024x4096) S1x1024x4096.size (cc0_transform_2 k0_off1_inb numel1_S1 pf i) h).WholeWords (EltTy.packing .bf16)) ∧
  (∀ i : grid0.Coords, ∃ h : (∀ a, (cc0_transform_3 k0_off1_inb numel1_S1 pf i a + 1) * S1x1x4096.size a ≤ S16x1x4096.size a), EltTy.bits .f32 = 32 ∨ (Rect.block (s := S16x1x4096) S1x1x4096.size (cc0_transform_3 k0_off1_inb numel1_S1 pf i) h).WholeWords (EltTy.packing .f32)) ∧
  (∀ i : grid0.Coords, ∃ h : (∀ a, (cc0_transform_4 k0_off1_inb numel1_S1 pf i a + 1) * S1x1x1024.size a ≤ S16x1x1024.size a), EltTy.bits .f32 = 32 ∨ (Rect.block (s := S16x1x1024) S1x1x1024.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S16x4096 : Shape := ⟨2, ![16, 4096]⟩
abbrev S16x1024 : Shape := ⟨2, ![16, 1024]⟩
abbrev S_ : Shape := ⟨0, ![]⟩
abbrev S1x4096x1024 : Shape := ⟨3, ![1, 4096, 1024]⟩
abbrev S1024x4096 : Shape := ⟨2, ![1024, 4096]⟩
abbrev S4096x4096 : Shape := ⟨2, ![4096, 4096]⟩
abbrev S1x4096 : Shape := ⟨2, ![1, 4096]⟩
abbrev S1x1024x4096 : Shape := ⟨3, ![1, 1024, 4096]⟩
abbrev S1x1024 : Shape := ⟨2, ![1, 1024]⟩
abbrev S1024 : Shape := ⟨1, ![1024]⟩
abbrev S4096x1 : Shape := ⟨2, ![4096, 1]⟩

abbrev nBuf : Space → Nat
  | .hbm => 488
  | .vmem => 0
  | .smem => 0
  | _ => 0

abbrev hbmTy0_0 (i : Nat) : BufTy := match i % 128 with
  | 0 => ⟨S4096x1024, .f32⟩
  | 1 => ⟨S4096, .i32⟩
  | 2 => ⟨S16x4096x1024, .f32⟩
  | 3 => ⟨S16x1024x4096, .f32⟩
  | 4 => ⟨S16x4096, .f32⟩
  | 5 => ⟨S16x1024, .f32⟩
  | 6 => ⟨S_, .f32⟩
  | 7 => ⟨S4096x1024, .f32⟩
  | 8 => ⟨S1x4096x1024, .f32⟩
  | 9 => ⟨S4096x1024, .f32⟩
  | 10 => ⟨S1024x4096, .f32⟩
  | 11 => ⟨S4096x4096, .f32⟩
  | 12 => ⟨S1x4096, .f32⟩
  | 13 => ⟨S4096, .f32⟩
  | 14 => ⟨S1x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S1x1024x4096, .f32⟩
  | 21 => ⟨S1024x4096, .f32⟩
  | 22 => ⟨S4096x1024, .f32⟩
  | 23 => ⟨S4096x1024, .f32⟩
  | 24 => ⟨S1x1024, .f32⟩
  | 25 => ⟨S1024, .f32⟩
  | 26 => ⟨S1x1024, .f32⟩
  | 27 => ⟨S4096x1024, .f32⟩
  | 28 => ⟨S4096x1024, .f32⟩
  | 29 => ⟨S_, .i32⟩
  | 30 => ⟨S4096, .i32⟩
  | 31 => ⟨S4096, .i1⟩
  | 32 => ⟨S4096x1, .i1⟩
  | 33 => ⟨S_, .f32⟩
  | 34 => ⟨S4096x1024, .i1⟩
  | 35 => ⟨S4096x1024, .f32⟩
  | 36 => ⟨S4096x1024, .f32⟩
  | 37 => ⟨S4096x1024, .f32⟩
  | 38 => ⟨S1x4096x1024, .f32⟩
  | 39 => ⟨S4096x1024, .f32⟩
  | 40 => ⟨S1024x4096, .f32⟩
  | 41 => ⟨S4096x4096, .f32⟩
  | 42 => ⟨S1x4096, .f32⟩
  | 43 => ⟨S4096, .f32⟩
  | 44 => ⟨S1x4096, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S1x1024x4096, .f32⟩
  | 51 => ⟨S1024x4096, .f32⟩
  | 52 => ⟨S4096x1024, .f32⟩
  | 53 => ⟨S4096x1024, .f32⟩
  | 54 => ⟨S1x1024, .f32⟩
  | 55 => ⟨S1024, .f32⟩
  | 56 => ⟨S1x1024, .f32⟩
  | 57 => ⟨S4096x1024, .f32⟩
  | 58 => ⟨S4096x1024, .f32⟩
  | 59 => ⟨S_, .i32⟩
  | 60 => ⟨S4096, .i32⟩
  | 61 => ⟨S4096, .i1⟩
  | 62 => ⟨S4096x1, .i1⟩
  | 63 => ⟨S_, .f32⟩
  | 64 => ⟨S4096x1024, .i1⟩
  | 65 => ⟨S4096x1024, .f32⟩
  | 66 => ⟨S4096x1024, .f32⟩
  | 67 => ⟨S4096x1024, .f32⟩
  | 68 => ⟨S1x4096x1024, .f32⟩
  | 69 => ⟨S4096x1024, .f32⟩
  | 70 => ⟨S1024x4096, .f32⟩
  | 71 => ⟨S4096x4096, .f32⟩
  | 72 => ⟨S1x4096, .f32⟩
  | 73 => ⟨S4096, .f32⟩
  | 74 => ⟨S1x4096, .f32⟩
  | 75 => ⟨S4096x4096, .f32⟩
  | 76 => ⟨S4096x4096, .f32⟩
  | 77 => ⟨S_, .f32⟩
  | 78 => ⟨S4096x4096, .f32⟩
  | 79 => ⟨S4096x4096, .f32⟩
  | 80 => ⟨S1x1024x4096, .f32⟩
  | 81 => ⟨S1024x4096, .f32⟩
  | 82 => ⟨S4096x1024, .f32⟩
  | 83 => ⟨S4096x1024, .f32⟩
  | 84 => ⟨S1x1024, .f32⟩
  | 85 => ⟨S1024, .f32⟩
  | 86 => ⟨S1x1024, .f32⟩
  | 87 => ⟨S4096x1024, .f32⟩
  | 88 => ⟨S4096x1024, .f32⟩
  | 89 => ⟨S_, .i32⟩
  | 90 => ⟨S4096, .i32⟩
  | 91 => ⟨S4096, .i1⟩
  | 92 => ⟨S4096x1, .i1⟩
  | 93 => ⟨S_, .f32⟩
  | 94 => ⟨S4096x1024, .i1⟩
  | 95 => ⟨S4096x1024, .f32⟩
  | 96 => ⟨S4096x1024, .f32⟩
  | 97 => ⟨S4096x1024, .f32⟩
  | 98 => ⟨S1x4096x1024, .f32⟩
  | 99 => ⟨S4096x1024, .f32⟩
  | 100 => ⟨S1024x4096, .f32⟩
  | 101 => ⟨S4096x4096, .f32⟩
  | 102 => ⟨S1x4096, .f32⟩
  | 103 => ⟨S4096, .f32⟩
  | 104 => ⟨S1x4096, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S1x1024x4096, .f32⟩
  | 111 => ⟨S1024x4096, .f32⟩
  | 112 => ⟨S4096x1024, .f32⟩
  | 113 => ⟨S4096x1024, .f32⟩
  | 114 => ⟨S1x1024, .f32⟩
  | 115 => ⟨S1024, .f32⟩
  | 116 => ⟨S1x1024, .f32⟩
  | 117 => ⟨S4096x1024, .f32⟩
  | 118 => ⟨S4096x1024, .f32⟩
  | 119 => ⟨S_, .i32⟩
  | 120 => ⟨S4096, .i32⟩
  | 121 => ⟨S4096, .i1⟩
  | 122 => ⟨S4096x1, .i1⟩
  | 123 => ⟨S_, .f32⟩
  | 124 => ⟨S4096x1024, .i1⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1x4096x1024, .f32⟩
  | 1 => ⟨S4096x1024, .f32⟩
  | 2 => ⟨S1024x4096, .f32⟩
  | 3 => ⟨S4096x4096, .f32⟩
  | 4 => ⟨S1x4096, .f32⟩
  | 5 => ⟨S4096, .f32⟩
  | 6 => ⟨S1x4096, .f32⟩
  | 7 => ⟨S4096x4096, .f32⟩
  | 8 => ⟨S4096x4096, .f32⟩
  | 9 => ⟨S_, .f32⟩
  | 10 => ⟨S4096x4096, .f32⟩
  | 11 => ⟨S4096x4096, .f32⟩
  | 12 => ⟨S1x1024x4096, .f32⟩
  | 13 => ⟨S1024x4096, .f32⟩
  | 14 => ⟨S4096x1024, .f32⟩
  | 15 => ⟨S4096x1024, .f32⟩
  | 16 => ⟨S1x1024, .f32⟩
  | 17 => ⟨S1024, .f32⟩
  | 18 => ⟨S1x1024, .f32⟩
  | 19 => ⟨S4096x1024, .f32⟩
  | 20 => ⟨S4096x1024, .f32⟩
  | 21 => ⟨S_, .i32⟩
  | 22 => ⟨S4096, .i32⟩
  | 23 => ⟨S4096, .i1⟩
  | 24 => ⟨S4096x1, .i1⟩
  | 25 => ⟨S_, .f32⟩
  | 26 => ⟨S4096x1024, .i1⟩
  | 27 => ⟨S4096x1024, .f32⟩
  | 28 => ⟨S4096x1024, .f32⟩
  | 29 => ⟨S4096x1024, .f32⟩
  | 30 => ⟨S1x4096x1024, .f32⟩
  | 31 => ⟨S4096x1024, .f32⟩
  | 32 => ⟨S1024x4096, .f32⟩
  | 33 => ⟨S4096x4096, .f32⟩
  | 34 => ⟨S1x4096, .f32⟩
  | 35 => ⟨S4096, .f32⟩
  | 36 => ⟨S1x4096, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S1x1024x4096, .f32⟩
  | 43 => ⟨S1024x4096, .f32⟩
  | 44 => ⟨S4096x1024, .f32⟩
  | 45 => ⟨S4096x1024, .f32⟩
  | 46 => ⟨S1x1024, .f32⟩
  | 47 => ⟨S1024, .f32⟩
  | 48 => ⟨S1x1024, .f32⟩
  | 49 => ⟨S4096x1024, .f32⟩
  | 50 => ⟨S4096x1024, .f32⟩
  | 51 => ⟨S_, .i32⟩
  | 52 => ⟨S4096, .i32⟩
  | 53 => ⟨S4096, .i1⟩
  | 54 => ⟨S4096x1, .i1⟩
  | 55 => ⟨S_, .f32⟩
  | 56 => ⟨S4096x1024, .i1⟩
  | 57 => ⟨S4096x1024, .f32⟩
  | 58 => ⟨S4096x1024, .f32⟩
  | 59 => ⟨S4096x1024, .f32⟩
  | 60 => ⟨S1x4096x1024, .f32⟩
  | 61 => ⟨S4096x1024, .f32⟩
  | 62 => ⟨S1024x4096, .f32⟩
  | 63 => ⟨S4096x4096, .f32⟩
  | 64 => ⟨S1x4096, .f32⟩
  | 65 => ⟨S4096, .f32⟩
  | 66 => ⟨S1x4096, .f32⟩
  | 67 => ⟨S4096x4096, .f32⟩
  | 68 => ⟨S4096x4096, .f32⟩
  | 69 => ⟨S_, .f32⟩
  | 70 => ⟨S4096x4096, .f32⟩
  | 71 => ⟨S4096x4096, .f32⟩
  | 72 => ⟨S1x1024x4096, .f32⟩
  | 73 => ⟨S1024x4096, .f32⟩
  | 74 => ⟨S4096x1024, .f32⟩
  | 75 => ⟨S4096x1024, .f32⟩
  | 76 => ⟨S1x1024, .f32⟩
  | 77 => ⟨S1024, .f32⟩
  | 78 => ⟨S1x1024, .f32⟩
  | 79 => ⟨S4096x1024, .f32⟩
  | 80 => ⟨S4096x1024, .f32⟩
  | 81 => ⟨S_, .i32⟩
  | 82 => ⟨S4096, .i32⟩
  | 83 => ⟨S4096, .i1⟩
  | 84 => ⟨S4096x1, .i1⟩
  | 85 => ⟨S_, .f32⟩
  | 86 => ⟨S4096x1024, .i1⟩
  | 87 => ⟨S4096x1024, .f32⟩
  | 88 => ⟨S4096x1024, .f32⟩
  | 89 => ⟨S4096x1024, .f32⟩
  | 90 => ⟨S1x4096x1024, .f32⟩
  | 91 => ⟨S4096x1024, .f32⟩
  | 92 => ⟨S1024x4096, .f32⟩
  | 93 => ⟨S4096x4096, .f32⟩
  | 94 => ⟨S1x4096, .f32⟩
  | 95 => ⟨S4096, .f32⟩
  | 96 => ⟨S1x4096, .f32⟩
  | 97 => ⟨S4096x4096, .f32⟩
  | 98 => ⟨S4096x4096, .f32⟩
  | 99 => ⟨S_, .f32⟩
  | 100 => ⟨S4096x4096, .f32⟩
  | 101 => ⟨S4096x4096, .f32⟩
  | 102 => ⟨S1x1024x4096, .f32⟩
  | 103 => ⟨S1024x4096, .f32⟩
  | 104 => ⟨S4096x1024, .f32⟩
  | 105 => ⟨S4096x1024, .f32⟩
  | 106 => ⟨S1x1024, .f32⟩
  | 107 => ⟨S1024, .f32⟩
  | 108 => ⟨S1x1024, .f32⟩
  | 109 => ⟨S4096x1024, .f32⟩
  | 110 => ⟨S4096x1024, .f32⟩
  | 111 => ⟨S_, .i32⟩
  | 112 => ⟨S4096, .i32⟩
  | 113 => ⟨S4096, .i1⟩
  | 114 => ⟨S4096x1, .i1⟩
  | 115 => ⟨S_, .f32⟩
  | 116 => ⟨S4096x1024, .i1⟩
  | 117 => ⟨S4096x1024, .f32⟩
  | 118 => ⟨S4096x1024, .f32⟩
  | 119 => ⟨S4096x1024, .f32⟩
  | 120 => ⟨S1x4096x1024, .f32⟩
  | 121 => ⟨S4096x1024, .f32⟩
  | 122 => ⟨S1024x4096, .f32⟩
  | 123 => ⟨S4096x4096, .f32⟩
  | 124 => ⟨S1x4096, .f32⟩
  | 125 => ⟨S4096, .f32⟩
  | 126 => ⟨S1x4096, .f32⟩
  | 127 => ⟨S4096x4096, .f32⟩
  | _ => ⟨S4096x1024, .f32⟩

abbrev hbmTy0_2 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S1x1024x4096, .f32⟩
  | 5 => ⟨S1024x4096, .f32⟩
  | 6 => ⟨S4096x1024, .f32⟩
  | 7 => ⟨S4096x1024, .f32⟩
  | 8 => ⟨S1x1024, .f32⟩
  | 9 => ⟨S1024, .f32⟩
  | 10 => ⟨S1x1024, .f32⟩
  | 11 => ⟨S4096x1024, .f32⟩
  | 12 => ⟨S4096x1024, .f32⟩
  | 13 => ⟨S_, .i32⟩
  | 14 => ⟨S4096, .i32⟩
  | 15 => ⟨S4096, .i1⟩
  | 16 => ⟨S4096x1, .i1⟩
  | 17 => ⟨S_, .f32⟩
  | 18 => ⟨S4096x1024, .i1⟩
  | 19 => ⟨S4096x1024, .f32⟩
  | 20 => ⟨S4096x1024, .f32⟩
  | 21 => ⟨S4096x1024, .f32⟩
  | 22 => ⟨S1x4096x1024, .f32⟩
  | 23 => ⟨S4096x1024, .f32⟩
  | 24 => ⟨S1024x4096, .f32⟩
  | 25 => ⟨S4096x4096, .f32⟩
  | 26 => ⟨S1x4096, .f32⟩
  | 27 => ⟨S4096, .f32⟩
  | 28 => ⟨S1x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S1x1024x4096, .f32⟩
  | 35 => ⟨S1024x4096, .f32⟩
  | 36 => ⟨S4096x1024, .f32⟩
  | 37 => ⟨S4096x1024, .f32⟩
  | 38 => ⟨S1x1024, .f32⟩
  | 39 => ⟨S1024, .f32⟩
  | 40 => ⟨S1x1024, .f32⟩
  | 41 => ⟨S4096x1024, .f32⟩
  | 42 => ⟨S4096x1024, .f32⟩
  | 43 => ⟨S_, .i32⟩
  | 44 => ⟨S4096, .i32⟩
  | 45 => ⟨S4096, .i1⟩
  | 46 => ⟨S4096x1, .i1⟩
  | 47 => ⟨S_, .f32⟩
  | 48 => ⟨S4096x1024, .i1⟩
  | 49 => ⟨S4096x1024, .f32⟩
  | 50 => ⟨S4096x1024, .f32⟩
  | 51 => ⟨S4096x1024, .f32⟩
  | 52 => ⟨S1x4096x1024, .f32⟩
  | 53 => ⟨S4096x1024, .f32⟩
  | 54 => ⟨S1024x4096, .f32⟩
  | 55 => ⟨S4096x4096, .f32⟩
  | 56 => ⟨S1x4096, .f32⟩
  | 57 => ⟨S4096, .f32⟩
  | 58 => ⟨S1x4096, .f32⟩
  | 59 => ⟨S4096x4096, .f32⟩
  | 60 => ⟨S4096x4096, .f32⟩
  | 61 => ⟨S_, .f32⟩
  | 62 => ⟨S4096x4096, .f32⟩
  | 63 => ⟨S4096x4096, .f32⟩
  | 64 => ⟨S1x1024x4096, .f32⟩
  | 65 => ⟨S1024x4096, .f32⟩
  | 66 => ⟨S4096x1024, .f32⟩
  | 67 => ⟨S4096x1024, .f32⟩
  | 68 => ⟨S1x1024, .f32⟩
  | 69 => ⟨S1024, .f32⟩
  | 70 => ⟨S1x1024, .f32⟩
  | 71 => ⟨S4096x1024, .f32⟩
  | 72 => ⟨S4096x1024, .f32⟩
  | 73 => ⟨S_, .i32⟩
  | 74 => ⟨S4096, .i32⟩
  | 75 => ⟨S4096, .i1⟩
  | 76 => ⟨S4096x1, .i1⟩
  | 77 => ⟨S_, .f32⟩
  | 78 => ⟨S4096x1024, .i1⟩
  | 79 => ⟨S4096x1024, .f32⟩
  | 80 => ⟨S4096x1024, .f32⟩
  | 81 => ⟨S4096x1024, .f32⟩
  | 82 => ⟨S1x4096x1024, .f32⟩
  | 83 => ⟨S4096x1024, .f32⟩
  | 84 => ⟨S1024x4096, .f32⟩
  | 85 => ⟨S4096x4096, .f32⟩
  | 86 => ⟨S1x4096, .f32⟩
  | 87 => ⟨S4096, .f32⟩
  | 88 => ⟨S1x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S1x1024x4096, .f32⟩
  | 95 => ⟨S1024x4096, .f32⟩
  | 96 => ⟨S4096x1024, .f32⟩
  | 97 => ⟨S4096x1024, .f32⟩
  | 98 => ⟨S1x1024, .f32⟩
  | 99 => ⟨S1024, .f32⟩
  | 100 => ⟨S1x1024, .f32⟩
  | 101 => ⟨S4096x1024, .f32⟩
  | 102 => ⟨S4096x1024, .f32⟩
  | 103 => ⟨S_, .i32⟩
  | 104 => ⟨S4096, .i32⟩
  | 105 => ⟨S4096, .i1⟩
  | 106 => ⟨S4096x1, .i1⟩
  | 107 => ⟨S_, .f32⟩
  | 108 => ⟨S4096x1024, .i1⟩
  | 109 => ⟨S4096x1024, .f32⟩
  | 110 => ⟨S4096x1024, .f32⟩
  | 111 => ⟨S4096x1024, .f32⟩
  | 112 => ⟨S1x4096x1024, .f32⟩
  | 113 => ⟨S4096x1024, .f32⟩
  | 114 => ⟨S1024x4096, .f32⟩
  | 115 => ⟨S4096x4096, .f32⟩
  | 116 => ⟨S1x4096, .f32⟩
  | 117 => ⟨S4096, .f32⟩
  | 118 => ⟨S1x4096, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S1x1024x4096, .f32⟩
  | 125 => ⟨S1024x4096, .f32⟩
  | 126 => ⟨S4096x1024, .f32⟩
  | 127 => ⟨S4096x1024, .f32⟩
  | _ => ⟨S4096x1024, .f32⟩

abbrev hbmTy0_3 (i : Nat) : BufTy := match i % 128 with
  | 0 => ⟨S1x1024, .f32⟩
  | 1 => ⟨S1024, .f32⟩
  | 2 => ⟨S1x1024, .f32⟩
  | 3 => ⟨S4096x1024, .f32⟩
  | 4 => ⟨S4096x1024, .f32⟩
  | 5 => ⟨S_, .i32⟩
  | 6 => ⟨S4096, .i32⟩
  | 7 => ⟨S4096, .i1⟩
  | 8 => ⟨S4096x1, .i1⟩
  | 9 => ⟨S_, .f32⟩
  | 10 => ⟨S4096x1024, .i1⟩
  | 11 => ⟨S4096x1024, .f32⟩
  | 12 => ⟨S4096x1024, .f32⟩
  | 13 => ⟨S4096x1024, .f32⟩
  | 14 => ⟨S1x4096x1024, .f32⟩
  | 15 => ⟨S4096x1024, .f32⟩
  | 16 => ⟨S1024x4096, .f32⟩
  | 17 => ⟨S4096x4096, .f32⟩
  | 18 => ⟨S1x4096, .f32⟩
  | 19 => ⟨S4096, .f32⟩
  | 20 => ⟨S1x4096, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | 26 => ⟨S1x1024x4096, .f32⟩
  | 27 => ⟨S1024x4096, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S_, .i32⟩
  | 36 => ⟨S4096, .i32⟩
  | 37 => ⟨S4096, .i1⟩
  | 38 => ⟨S4096x1, .i1⟩
  | 39 => ⟨S_, .f32⟩
  | 40 => ⟨S4096x1024, .i1⟩
  | 41 => ⟨S4096x1024, .f32⟩
  | 42 => ⟨S4096x1024, .f32⟩
  | 43 => ⟨S4096x1024, .f32⟩
  | 44 => ⟨S1x4096x1024, .f32⟩
  | 45 => ⟨S4096x1024, .f32⟩
  | 46 => ⟨S1024x4096, .f32⟩
  | 47 => ⟨S4096x4096, .f32⟩
  | 48 => ⟨S1x4096, .f32⟩
  | 49 => ⟨S4096, .f32⟩
  | 50 => ⟨S1x4096, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S1x1024x4096, .f32⟩
  | 57 => ⟨S1024x4096, .f32⟩
  | 58 => ⟨S4096x1024, .f32⟩
  | 59 => ⟨S4096x1024, .f32⟩
  | 60 => ⟨S1x1024, .f32⟩
  | 61 => ⟨S1024, .f32⟩
  | 62 => ⟨S1x1024, .f32⟩
  | 63 => ⟨S4096x1024, .f32⟩
  | 64 => ⟨S4096x1024, .f32⟩
  | 65 => ⟨S_, .i32⟩
  | 66 => ⟨S4096, .i32⟩
  | 67 => ⟨S4096, .i1⟩
  | 68 => ⟨S4096x1, .i1⟩
  | 69 => ⟨S_, .f32⟩
  | 70 => ⟨S4096x1024, .i1⟩
  | 71 => ⟨S4096x1024, .f32⟩
  | 72 => ⟨S4096x1024, .f32⟩
  | 73 => ⟨S4096x1024, .f32⟩
  | 74 => ⟨S1x4096x1024, .f32⟩
  | 75 => ⟨S4096x1024, .f32⟩
  | 76 => ⟨S1024x4096, .f32⟩
  | 77 => ⟨S4096x4096, .f32⟩
  | 78 => ⟨S1x4096, .f32⟩
  | 79 => ⟨S4096, .f32⟩
  | 80 => ⟨S1x4096, .f32⟩
  | 81 => ⟨S4096x4096, .f32⟩
  | 82 => ⟨S4096x4096, .f32⟩
  | 83 => ⟨S_, .f32⟩
  | 84 => ⟨S4096x4096, .f32⟩
  | 85 => ⟨S4096x4096, .f32⟩
  | 86 => ⟨S1x1024x4096, .f32⟩
  | 87 => ⟨S1024x4096, .f32⟩
  | 88 => ⟨S4096x1024, .f32⟩
  | 89 => ⟨S4096x1024, .f32⟩
  | 90 => ⟨S1x1024, .f32⟩
  | 91 => ⟨S1024, .f32⟩
  | 92 => ⟨S1x1024, .f32⟩
  | 93 => ⟨S4096x1024, .f32⟩
  | 94 => ⟨S4096x1024, .f32⟩
  | 95 => ⟨S_, .i32⟩
  | 96 => ⟨S4096, .i32⟩
  | 97 => ⟨S4096, .i1⟩
  | 98 => ⟨S4096x1, .i1⟩
  | 99 => ⟨S_, .f32⟩
  | 100 => ⟨S4096x1024, .i1⟩
  | 101 => ⟨S4096x1024, .f32⟩
  | 102 => ⟨S4096x1024, .f32⟩
  | 103 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call2_cst : Ref sig .tc := ⟨.hbm, 47, rfl⟩
abbrev main_call2_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_2 : Ref sig .tc := ⟨.hbm, 63, rfl⟩
abbrev main_call3_v0 : Ref sig .tc := ⟨.hbm, 64, rfl⟩
abbrev main_call3_v1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call4_cst : Ref sig .tc := ⟨.hbm, 77, rfl⟩
abbrev main_call4_v0 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_3 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_4 : Ref sig .tc := ⟨.hbm, 93, rfl⟩
abbrev main_call5_v0 : Ref sig .tc := ⟨.hbm, 94, rfl⟩
abbrev main_call5_v1 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_call6_cst : Ref sig .tc := ⟨.hbm, 107, rfl⟩
abbrev main_call6_v0 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_5 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_6 : Ref sig .tc := ⟨.hbm, 123, rfl⟩
abbrev main_call7_v0 : Ref sig .tc := ⟨.hbm, 124, rfl⟩
abbrev main_call7_v1 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call8_cst : Ref sig .tc := ⟨.hbm, 137, rfl⟩
abbrev main_call8_v0 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_c_7 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_8 : Ref sig .tc := ⟨.hbm, 153, rfl⟩
abbrev main_call9_v0 : Ref sig .tc := ⟨.hbm, 154, rfl⟩
abbrev main_call9_v1 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_call10_cst : Ref sig .tc := ⟨.hbm, 167, rfl⟩
abbrev main_call10_v0 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_9 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_10 : Ref sig .tc := ⟨.hbm, 183, rfl⟩
abbrev main_call11_v0 : Ref sig .tc := ⟨.hbm, 184, rfl⟩
abbrev main_call11_v1 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_call12_cst : Ref sig .tc := ⟨.hbm, 197, rfl⟩
abbrev main_call12_v0 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_c_11 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_12 : Ref sig .tc := ⟨.hbm, 213, rfl⟩
abbrev main_call13_v0 : Ref sig .tc := ⟨.hbm, 214, rfl⟩
abbrev main_call13_v1 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_call14_cst : Ref sig .tc := ⟨.hbm, 227, rfl⟩
abbrev main_call14_v0 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_c_13 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_14 : Ref sig .tc := ⟨.hbm, 243, rfl⟩
abbrev main_call15_v0 : Ref sig .tc := ⟨.hbm, 244, rfl⟩
abbrev main_call15_v1 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_call16_cst : Ref sig .tc := ⟨.hbm, 257, rfl⟩
abbrev main_call16_v0 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_c_15 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_cst_16 : Ref sig .tc := ⟨.hbm, 273, rfl⟩
abbrev main_call17_v0 : Ref sig .tc := ⟨.hbm, 274, rfl⟩
abbrev main_call17_v1 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_call18_cst : Ref sig .tc := ⟨.hbm, 287, rfl⟩
abbrev main_call18_v0 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_c_17 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_cst_18 : Ref sig .tc := ⟨.hbm, 303, rfl⟩
abbrev main_call19_v0 : Ref sig .tc := ⟨.hbm, 304, rfl⟩
abbrev main_call19_v1 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_call20_cst : Ref sig .tc := ⟨.hbm, 317, rfl⟩
abbrev main_call20_v0 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_c_19 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_cst_20 : Ref sig .tc := ⟨.hbm, 333, rfl⟩
abbrev main_call21_v0 : Ref sig .tc := ⟨.hbm, 334, rfl⟩
abbrev main_call21_v1 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_call22_cst : Ref sig .tc := ⟨.hbm, 347, rfl⟩
abbrev main_call22_v0 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_c_21 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_cst_22 : Ref sig .tc := ⟨.hbm, 363, rfl⟩
abbrev main_call23_v0 : Ref sig .tc := ⟨.hbm, 364, rfl⟩
abbrev main_call23_v1 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_call24_cst : Ref sig .tc := ⟨.hbm, 377, rfl⟩
abbrev main_call24_v0 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_c_23 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_cst_24 : Ref sig .tc := ⟨.hbm, 393, rfl⟩
abbrev main_call25_v0 : Ref sig .tc := ⟨.hbm, 394, rfl⟩
abbrev main_call25_v1 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_v321 : Ref sig .tc := ⟨.hbm, 406, rfl⟩
abbrev main_call26_cst : Ref sig .tc := ⟨.hbm, 407, rfl⟩
abbrev main_call26_v0 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_c_25 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_cst_26 : Ref sig .tc := ⟨.hbm, 423, rfl⟩
abbrev main_call27_v0 : Ref sig .tc := ⟨.hbm, 424, rfl⟩
abbrev main_call27_v1 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_call28_cst : Ref sig .tc := ⟨.hbm, 437, rfl⟩
abbrev main_call28_v0 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_c_27 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_cst_28 : Ref sig .tc := ⟨.hbm, 453, rfl⟩
abbrev main_call29_v0 : Ref sig .tc := ⟨.hbm, 454, rfl⟩
abbrev main_call29_v1 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_v369 : Ref sig .tc := ⟨.hbm, 466, rfl⟩
abbrev main_call30_cst : Ref sig .tc := ⟨.hbm, 467, rfl⟩
abbrev main_call30_v0 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_c_29 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_cst_30 : Ref sig .tc := ⟨.hbm, 483, rfl⟩
abbrev main_call31_v0 : Ref sig .tc := ⟨.hbm, 484, rfl⟩
abbrev main_call31_v1 : Ref sig .tc := ⟨.hbm, 485, rfl⟩
abbrev main_v383 : Ref sig .tc := ⟨.hbm, 486, rfl⟩
abbrev main_v384 : Ref sig .tc := ⟨.hbm, 487, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  slices_S16x4096x1024_S1x4096x1024_0_0_0 : S16x4096x1024.Slices ![0, 0, 0] S1x4096x1024
  shapeCasts_S1x4096x1024_S4096x1024 : S1x4096x1024.ShapeCasts S4096x1024
  transposes_S4096x1024_S1024x4096_1_0 : S4096x1024.Transposes [1, 0] S1024x4096
  slices_S16x4096_S1x4096_0_0 : S16x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S16x1024x4096_S1x1024x4096_0_0_0 : S16x1024x4096.Slices ![0, 0, 0] S1x1024x4096
  shapeCasts_S1x1024x4096_S1024x4096 : S1x1024x4096.ShapeCasts S1024x4096
  transposes_S1024x4096_S4096x1024_1_0 : S1024x4096.Transposes [1, 0] S4096x1024
  slices_S16x1024_S1x1024_0_0 : S16x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  slices_S16x4096x1024_S1x4096x1024_1_0_0 : S16x4096x1024.Slices ![1, 0, 0] S1x4096x1024
  slices_S16x4096_S1x4096_1_0 : S16x4096.Slices ![1, 0] S1x4096
  slices_S16x1024x4096_S1x1024x4096_1_0_0 : S16x1024x4096.Slices ![1, 0, 0] S1x1024x4096
  slices_S16x1024_S1x1024_1_0 : S16x1024.Slices ![1, 0] S1x1024
  slices_S16x4096x1024_S1x4096x1024_2_0_0 : S16x4096x1024.Slices ![2, 0, 0] S1x4096x1024
  slices_S16x4096_S1x4096_2_0 : S16x4096.Slices ![2, 0] S1x4096
  slices_S16x1024x4096_S1x1024x4096_2_0_0 : S16x1024x4096.Slices ![2, 0, 0] S1x1024x4096
  slices_S16x1024_S1x1024_2_0 : S16x1024.Slices ![2, 0] S1x1024
  slices_S16x4096x1024_S1x4096x1024_3_0_0 : S16x4096x1024.Slices ![3, 0, 0] S1x4096x1024
  slices_S16x4096_S1x4096_3_0 : S16x4096.Slices ![3, 0] S1x4096
  slices_S16x1024x4096_S1x1024x4096_3_0_0 : S16x1024x4096.Slices ![3, 0, 0] S1x1024x4096
  slices_S16x1024_S1x1024_3_0 : S16x1024.Slices ![3, 0] S1x1024
  slices_S16x4096x1024_S1x4096x1024_4_0_0 : S16x4096x1024.Slices ![4, 0, 0] S1x4096x1024
  slices_S16x4096_S1x4096_4_0 : S16x4096.Slices ![4, 0] S1x4096
  slices_S16x1024x4096_S1x1024x4096_4_0_0 : S16x1024x4096.Slices ![4, 0, 0] S1x1024x4096
  slices_S16x1024_S1x1024_4_0 : S16x1024.Slices ![4, 0] S1x1024
  slices_S16x4096x1024_S1x4096x1024_5_0_0 : S16x4096x1024.Slices ![5, 0, 0] S1x4096x1024
  slices_S16x4096_S1x4096_5_0 : S16x4096.Slices ![5, 0] S1x4096
  slices_S16x1024x4096_S1x1024x4096_5_0_0 : S16x1024x4096.Slices ![5, 0, 0] S1x1024x4096
  slices_S16x1024_S1x1024_5_0 : S16x1024.Slices ![5, 0] S1x1024
  slices_S16x4096x1024_S1x4096x1024_6_0_0 : S16x4096x1024.Slices ![6, 0, 0] S1x4096x1024
  slices_S16x4096_S1x4096_6_0 : S16x4096.Slices ![6, 0] S1x4096
  slices_S16x1024x4096_S1x1024x4096_6_0_0 : S16x1024x4096.Slices ![6, 0, 0] S1x1024x4096
  slices_S16x1024_S1x1024_6_0 : S16x1024.Slices ![6, 0] S1x1024
  slices_S16x4096x1024_S1x4096x1024_7_0_0 : S16x4096x1024.Slices ![7, 0, 0] S1x4096x1024
  slices_S16x4096_S1x4096_7_0 : S16x4096.Slices ![7, 0] S1x4096
  slices_S16x1024x4096_S1x1024x4096_7_0_0 : S16x1024x4096.Slices ![7, 0, 0] S1x1024x4096
  slices_S16x1024_S1x1024_7_0 : S16x1024.Slices ![7, 0] S1x1024
  slices_S16x4096x1024_S1x4096x1024_8_0_0 : S16x4096x1024.Slices ![8, 0, 0] S1x4096x1024
  slices_S16x4096_S1x4096_8_0 : S16x4096.Slices ![8, 0] S1x4096
  slices_S16x1024x4096_S1x1024x4096_8_0_0 : S16x1024x4096.Slices ![8, 0, 0] S1x1024x4096
  slices_S16x1024_S1x1024_8_0 : S16x1024.Slices ![8, 0] S1x1024
  slices_S16x4096x1024_S1x4096x1024_9_0_0 : S16x4096x1024.Slices ![9, 0, 0] S1x4096x1024
  slices_S16x4096_S1x4096_9_0 : S16x4096.Slices ![9, 0] S1x4096
  slices_S16x1024x4096_S1x1024x4096_9_0_0 : S16x1024x4096.Slices ![9, 0, 0] S1x1024x4096
  slices_S16x1024_S1x1024_9_0 : S16x1024.Slices ![9, 0] S1x1024
  slices_S16x4096x1024_S1x4096x1024_10_0_0 : S16x4096x1024.Slices ![10, 0, 0] S1x4096x1024
  slices_S16x4096_S1x4096_10_0 : S16x4096.Slices ![10, 0] S1x4096
  slices_S16x1024x4096_S1x1024x4096_10_0_0 : S16x1024x4096.Slices ![10, 0, 0] S1x1024x4096
  slices_S16x1024_S1x1024_10_0 : S16x1024.Slices ![10, 0] S1x1024
  slices_S16x4096x1024_S1x4096x1024_11_0_0 : S16x4096x1024.Slices ![11, 0, 0] S1x4096x1024
  slices_S16x4096_S1x4096_11_0 : S16x4096.Slices ![11, 0] S1x4096
  slices_S16x1024x4096_S1x1024x4096_11_0_0 : S16x1024x4096.Slices ![11, 0, 0] S1x1024x4096
  slices_S16x1024_S1x1024_11_0 : S16x1024.Slices ![11, 0] S1x1024
  slices_S16x4096x1024_S1x4096x1024_12_0_0 : S16x4096x1024.Slices ![12, 0, 0] S1x4096x1024
  slices_S16x4096_S1x4096_12_0 : S16x4096.Slices ![12, 0] S1x4096
  slices_S16x1024x4096_S1x1024x4096_12_0_0 : S16x1024x4096.Slices ![12, 0, 0] S1x1024x4096
  slices_S16x1024_S1x1024_12_0 : S16x1024.Slices ![12, 0] S1x1024
  slices_S16x4096x1024_S1x4096x1024_13_0_0 : S16x4096x1024.Slices ![13, 0, 0] S1x4096x1024
  slices_S16x4096_S1x4096_13_0 : S16x4096.Slices ![13, 0] S1x4096
  slices_S16x1024x4096_S1x1024x4096_13_0_0 : S16x1024x4096.Slices ![13, 0, 0] S1x1024x4096
  slices_S16x1024_S1x1024_13_0 : S16x1024.Slices ![13, 0] S1x1024
  slices_S16x4096x1024_S1x4096x1024_14_0_0 : S16x4096x1024.Slices ![14, 0, 0] S1x4096x1024
  slices_S16x4096_S1x4096_14_0 : S16x4096.Slices ![14, 0] S1x4096
  slices_S16x1024x4096_S1x1024x4096_14_0_0 : S16x1024x4096.Slices ![14, 0, 0] S1x1024x4096
  slices_S16x1024_S1x1024_14_0 : S16x1024.Slices ![14, 0] S1x1024
  slices_S16x4096x1024_S1x4096x1024_15_0_0 : S16x4096x1024.Slices ![15, 0, 0] S1x4096x1024
  slices_S16x4096_S1x4096_15_0 : S16x4096.Slices ![15, 0] S1x4096
  slices_S16x1024x4096_S1x1024x4096_15_0_0 : S16x1024x4096.Slices ![15, 0, 0] S1x1024x4096
  slices_S16x1024_S1x1024_15_0 : S16x1024.Slices ![15, 0] S1x1024
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Take.lean ====
import Idealize.ShloMosaic.Lib.StableHlo.Predicate
import Idealize.ShloMosaic.Lib.ValueIdx

noncomputable section

namespace Cert.TakeAt

open Idealize.ShloMosaic Idealize.ShloMosaic.ValueIdx Idealize.ShloMosaic.StableHlo.Predicate

theorem ofFin_eq_ix1 {n : ℕ} (p : Fin n) : Shape.Idx.ofFin p = ix1 p := by
  funext a; match a with | ⟨0, _⟩ => rfl

theorem andi_one_bit (b : BitVec 1) : IntOp.andi b 1#1 = b := by
  rcases BitVec.eq_zero_or_eq_one b with rfl | rfl <;> rfl

theorem reduce_and_col1 {n : ℕ} (mask : IVec ⟨2, ![n, 1]⟩ 1) (h : (⟨2, ![n, 1]⟩ : Shape).ReducesTo [1] ⟨1, ![n]⟩)
    {u : Shape} (hu : 0 < u.numel) (p : Fin n) :
    Host.reduce IntOp.andi mask (constantI u 1 1#1) h hu (ix1 p) = mask (ixP p) := by
  classical
  rw [Host.reduce_eq_fold]
  have hset : (Finset.univ.filter fun i : (⟨2, ![n, 1]⟩ : Shape).Idx => h.drop i = ix1 p) = {ixP p} := by
    ext i
    simp only [Finset.mem_filter, Finset.mem_univ, true_and, Finset.mem_singleton]
    have hv : (h.drop i 0 : Nat) = i 0 := Shape.ReducesTo.drop_apply_val h i 0
    constructor
    · intro e
      rw [e] at hv
      funext b
      match b with
      | ⟨0, _⟩ => exact Fin.ext hv.symm
      | ⟨1, _⟩ =>
        apply Fin.ext
        have h1 : (i 1).val < 1 := (i 1).isLt
        show (i 1).val = 0
        omega
    · intro e
      subst e
      funext b
      have hb : b = 0 := Subsingleton.elim _ _
      subst hb
      exact Fin.ext hv
  rw [hset, Finset.fold_singleton]
  exact andi_one_bit _

theorem wrap_apply {n : ℕ} (idx zero cN : IVec ⟨1, ![n]⟩ 32) (j : (⟨1, ![n]⟩ : Shape).Idx) (hz : zero j = 0#32)
    (h : (idx j).toNat < 2 ^ 31) : select (cmpi .slt idx zero) (addi idx cN) idx j = idx j := by
  rw [select_apply]
  have hc : cmpi .slt idx zero j = 0#1 := by
    apply eq_zero_of_ne_one
    show ¬ IntOp.cmpi .slt (idx j) (zero j) = 1#1
    rw [hz, slt_iff_toNat h (by decide)]
    simp
  rw [hc, select_zero]

theorem take_core {α : Type} {N n : ℕ} (hN : 0 < N) (hN' : N < 2 ^ 31)
    (hred : (⟨2, ![n, 1]⟩ : Shape).ReducesTo [1] ⟨1, ![n]⟩) {u : Shape} (hu : 0 < u.numel)
    (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1)
    (x : (⟨1, ![N]⟩ : Shape).Idx → α) (col : IVec ⟨2, ![n, 1]⟩ 32) (ok : IVec ⟨2, ![n, 1]⟩ 1)
    (fillv : (⟨1, ![n]⟩ : Shape).Idx → α) (p : Fin n) (w : BitVec 32) (hcol : col (ixP p) = w) (hw : w.toNat < N)
    (hok : ok (ixP p) = 1#1) :
    select (Host.reduce IntOp.andi ok (constantI u 1 1#1) hred hu) (Host.gather d x col) fillv (ix1 p)
      = x (ix1 ⟨w.toNat, hw⟩) := by
  subst hcol
  rw [select_apply, reduce_and_col1, hok, select_one, ← ofFin_eq_ix1, gather_take d hcoll hob hsim hivd x col p hN]
  have hm : min (col (ixP p)).toInt.toNat (N - 1) = (col (ixP p)).toNat := by
    rw [toInt_eq_toNat_of_lt (by omega), Int.toNat_natCast]
    omega
  congr 1
  funext a
  match a with
  | ⟨0, _⟩ => exact Fin.ext hm

abbrev wrapIdx {n : ℕ} (b0 : (⟨0, ![]⟩ : Shape).BroadcastsInDim ⟨1, ![n]⟩ ![]) (cN : BitVec 32) (idx : IVec ⟨1, ![n]⟩ 32) :
    IVec ⟨1, ![n]⟩ 32 :=
  select (cmpi .slt idx (broadcastInDim ⟨1, ![n]⟩ ![] b0 (constantI ⟨0, ![]⟩ 32 0#32)))
    (addi idx (broadcastInDim ⟨1, ![n]⟩ ![] b0 (constantI ⟨0, ![]⟩ 32 cN))) idx

abbrev colIdx {n : ℕ} (b0 : (⟨0, ![]⟩ : Shape).BroadcastsInDim ⟨1, ![n]⟩ ![])
    (bcol : (⟨1, ![n]⟩ : Shape).BroadcastsInDim ⟨2, ![n, 1]⟩ ![0]) (cN : BitVec 32) (idx : IVec ⟨1, ![n]⟩ 32) :
    IVec ⟨2, ![n, 1]⟩ 32 :=
  broadcastInDim ⟨2, ![n, 1]⟩ ![0] bcol (wrapIdx b0 cN idx)

/-- take(x, idx) as printed: wrap a negative index once, test the range, gather at the clamped index, fill where out of range. -/
def take {N n : ℕ} (cN cN1 fill : BitVec 32)
    (b0 : (⟨0, ![]⟩ : Shape).BroadcastsInDim ⟨1, ![n]⟩ ![])
    (bcol : (⟨1, ![n]⟩ : Shape).BroadcastsInDim ⟨2, ![n, 1]⟩ ![0])
    (b0c : (⟨0, ![]⟩ : Shape).BroadcastsInDim ⟨2, ![n, 1]⟩ ![])
    (b11 : (⟨1, ![1]⟩ : Shape).BroadcastsInDim ⟨2, ![1, 1]⟩ ![1])
    (b11n : (⟨2, ![1, 1]⟩ : Shape).BroadcastsInDim ⟨2, ![n, 1]⟩ ![0, 1])
    (hred : (⟨2, ![n, 1]⟩ : Shape).ReducesTo [1] ⟨1, ![n]⟩) (h0 : 0 < (⟨0, ![]⟩ : Shape).numel)
    (d : GatherDims ⟨1, ![N]⟩ ⟨2, ![n, 1]⟩ ⟨1, ![n]⟩) (x : IVec ⟨1, ![N]⟩ 32) (idx : IVec ⟨1, ![n]⟩ 32) : IVec ⟨1, ![n]⟩ 32 :=
  select
      (Host.reduce IntOp.andi
        (andi
          (cmpi .sge (colIdx b0 bcol cN idx) (broadcastInDim ⟨2, ![n, 1]⟩ ![] b0c (constantI ⟨0, ![]⟩ 32 0#32)))
          (cmpi .sle (colIdx b0 bcol cN idx)
            (broadcastInDim ⟨2, ![n, 1]⟩ ![0, 1] b11n (broadcastInDim ⟨2, ![1, 1]⟩ ![1] b11 (constantI ⟨1, ![1]⟩ 32 cN1)))))
        (constantI ⟨0, ![]⟩ 1 1#1) hred h0)
      (Host.gather d x (colIdx b0 bcol cN idx))
      (broadcastInDim ⟨1, ![n]⟩ ![] b0 (constantI ⟨0, ![]⟩ 32 fill))

/-- Where the index word is in range, take(x, idx) is x[idx]: nothing wraps, the range bit is set, the clamp is idle. -/
theorem take_at {N n : ℕ} (hN : 0 < N) (hN' : N < 2 ^ 31) (cN cN1 fill : BitVec 32) (hcN1 : cN1.toNat = N - 1)
    (b0 : (⟨0, ![]⟩ : Shape).BroadcastsInDim ⟨1, ![n]⟩ ![])
    (bcol : (⟨1, ![n]⟩ : Shape).BroadcastsInDim ⟨2, ![n, 1]⟩ ![0])
    (b0c : (⟨0, ![]⟩ : Shape).BroadcastsInDim ⟨2, ![n, 1]⟩ ![])
    (b11 : (⟨1, ![1]⟩ : Shape).BroadcastsInDim ⟨2, ![1, 1]⟩ ![1])
    (b11n : (⟨2, ![1, 1]⟩ : Shape).BroadcastsInDim ⟨2, ![n, 1]⟩ ![0, 1])
    (hred : (⟨2, ![n, 1]⟩ : Shape).ReducesTo [1] ⟨1, ![n]⟩) (h0 : 0 < (⟨0, ![]⟩ : Shape).numel)
    (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1)
    (x : IVec ⟨1, ![N]⟩ 32) (idx : IVec ⟨1, ![n]⟩ 32) (p : Fin n) (hp : (idx (ix1 p)).toNat < N) :
    take cN cN1 fill b0 bcol b0c b11 b11n hred h0 d x idx (ix1 p)
      = x (ix1 ⟨(idx (ix1 p)).toNat, hp⟩) := by
  unfold take
  have hw31 : (idx (ix1 p)).toNat < 2 ^ 31 := by omega
  have hcol : colIdx b0 bcol cN idx (ixP p) = idx (ix1 p) := by
    show broadcastInDim ⟨2, ![n, 1]⟩ ![0] bcol (wrapIdx b0 cN idx) (ixP p) = idx (ix1 p)
    rw [bcast_col1, ofFin_eq_ix1]
    exact wrap_apply idx _ _ (ix1 p) rfl hw31
  refine take_core hN hN' hred h0 d hcoll hob hsim hivd x _ _ _ p (idx (ix1 p)) hcol hp ?_
  show IntOp.andi (IntOp.cmpi .sge (colIdx b0 bcol cN idx (ixP p)) 0#32) (IntOp.cmpi .sle (colIdx b0 bcol cN idx (ixP p)) cN1) = 1#1
  rw [hcol, (sge_iff_toNat hw31 (by decide)).mpr (Nat.zero_le _), (sle_iff_toNat hw31 (by omega)).mpr (by omega)]
  rfl

end Cert.TakeAt

end
-- ==== Proof.HostFns.lean ====
import proofs.«428696_j3496103379639_3_alg».proof.KernelIdeal
import proofs.«428696_j3496103379639_3_alg».proof.Proof.Take

noncomputable section

namespace Cert.KernelIdeal

open Idealize.ShloMosaic Idealize.ShloMosaic.TcCoe Idealize.SL.Sem

variable [Facts]
open Facts₀ Facts

def w_main_call0_v0 : IVec S4096 32 :=
  (iotaInDim S4096 32 0)

def w_main_call0_v1_0 (a1 : IVec S4096 32) : IVec S4096 32 :=
  (fun x y => (Host.sort2 S4096 0 comparator_i32_i32_d0 x y).1) a1 w_main_call0_v0

def w_main_v0 (a1 : IVec S4096 32) : IVec S4096 32 :=
  (fun x y => (Host.sort2 S4096 0 comparator_i32_i32_d0 x y).2) a1 w_main_call0_v0

def w_main_v1 : IVec S16 32 :=
  (iotaInDim S16 32 0)

def w_main_v2 (a1 : IVec S4096 32) : IVec S1x4096 32 :=
  (broadcastInDim S1x4096 ![1] bcast_S4096_S1x4096_1) a1

def w_main_v3 : IVec S16x1 32 :=
  (broadcastInDim S16x1 ![0] bcast_S16_S16x1_0) w_main_v1

def w_main_v4 (a1 : IVec S4096 32) : IVec S16x4096 32 :=
  (broadcastInDim S16x4096 ![0, 1] bcast_S1x4096_S16x4096_0_1) (w_main_v2 a1)

def w_main_v5 : IVec S16x4096 32 :=
  (broadcastInDim S16x4096 ![0, 1] bcast_S16x1_S16x4096_0_1) w_main_v3

def w_main_v6 (a1 : IVec S4096 32) : IVec S16x4096 1 :=
  (cmpi .eq) (w_main_v4 a1) w_main_v5

def w_main_v7 (a1 : IVec S4096 32) : IVec S16x4096 32 :=
  ((extui 32 · natLt_1_32)) (w_main_v6 a1)

def w_main_c : IVec S_ 32 :=
  (constantI S_ 32 0#32)

def w_main_v8 (a1 : IVec S4096 32) : IVec S16 32 :=
  ((fun x v => Host.reduce IntOp.addi x v reducesTo_S16x4096_S16_d1 h_S_)) (w_main_v7 a1) w_main_c

def w_main_call1_call0_c : IVec S_ 32 :=
  (constantI S_ 32 0#32)

def w_main_call1_call0_v0 : IVec S_ 32 :=
  (broadcastInDim S_ ![] bcast_S_S_) w_main_call1_call0_c

def w_main_v9 (a1 : IVec S4096 32) : IVec S16 32 :=
  (fun x v => Host.reduceWindow IntOp.addi ![16] ![1] ![15] ![0] x v reduceWindows_S16_S16_w16s1p15_0 h_S_) (w_main_v8 a1) w_main_call1_call0_v0

def w_main_v10 (a1 : IVec S4096 32) : IVec S16 32 :=
  (subi) (w_main_v9 a1) (w_main_v8 a1)

def w_main_c_0 : IVec S_ 32 :=
  (constantI S_ 32 127#32)

def w_main_v11 : IVec S16 32 :=
  (broadcastInDim S16 ![] bcast_S_S16) w_main_c_0

def w_main_v12 (a1 : IVec S4096 32) : IVec S16 32 :=
  (addi) (w_main_v8 a1) w_main_v11

def w_main_c_1 : IVec S_ 32 :=
  (constantI S_ 32 128#32)

def w_main_call2_v0 : IVec S_ 32 :=
  id w_main_c_1

def w_main_call2_v1 : IVec S16 32 :=
  (broadcastInDim S16 ![] bcast_S_S16) w_main_call2_v0

def w_main_call2_v2 (a1 : IVec S4096 32) : IVec S16 32 :=
  Host.divsi (w_main_v12 a1) w_main_call2_v1

def w_main_call2_v3 (a1 : IVec S4096 32) : IVec S16 32 :=
  signi (w_main_v12 a1)

def w_main_call2_v4 : IVec S_ 32 :=
  signi w_main_call2_v0

def w_main_call2_v5 : IVec S16 32 :=
  (broadcastInDim S16 ![] bcast_S_S16) w_main_call2_v4

def w_main_call2_v6 (a1 : IVec S4096 32) : IVec S16 1 :=
  (cmpi .ne) (w_main_call2_v3 a1) w_main_call2_v5

def w_main_call2_v7 : IVec S16 32 :=
  (broadcastInDim S16 ![] bcast_S_S16) w_main_call2_v0

def w_main_call2_v8 (a1 : IVec S4096 32) : IVec S16 32 :=
  Host.remsi (w_main_v12 a1) w_main_call2_v7

def w_main_call2_c : IVec S_ 32 :=
  (constantI S_ 32 0#32)

def w_main_call2_v9 : IVec S16 32 :=
  (broadcastInDim S16 ![] bcast_S_S16) w_main_call2_c

def w_main_call2_v10 (a1 : IVec S4096 32) : IVec S16 1 :=
  (cmpi .ne) (w_main_call2_v8 a1) w_main_call2_v9

def w_main_call2_v11 (a1 : IVec S4096 32) : IVec S16 1 :=
  andi (w_main_call2_v6 a1) (w_main_call2_v10 a1)

def w_main_call2_c_0 : IVec S_ 32 :=
  (constantI S_ 32 1#32)

def w_main_call2_v12 : IVec S16 32 :=
  (broadcastInDim S16 ![] bcast_S_S16) w_main_call2_c_0

def w_main_call2_v13 (a1 : IVec S4096 32) : IVec S16 32 :=
  subi (w_main_call2_v2 a1) w_main_call2_v12

def w_main_v13 (a1 : IVec S4096 32) : IVec S16 32 :=
  select (w_main_call2_v11 a1) (w_main_call2_v13 a1) (w_main_call2_v2 a1)

def w_main_call3_call0_c : IVec S_ 32 :=
  (constantI S_ 32 0#32)

def w_main_call3_call0_v0 : IVec S_ 32 :=
  (broadcastInDim S_ ![] bcast_S_S_) w_main_call3_call0_c

def w_main_v14 (a1 : IVec S4096 32) : IVec S16 32 :=
  (fun x v => Host.reduceWindow IntOp.addi ![16] ![1] ![15] ![0] x v reduceWindows_S16_S16_w16s1p15_0 h_S_) (w_main_v13 a1) w_main_call3_call0_v0

def w_main_v15 (a1 : IVec S4096 32) : IVec S16 32 :=
  (subi) (w_main_v14 a1) (w_main_v13 a1)

def w_main_c_2 : IVec S_ 32 :=
  (constantI S_ 32 128#32)

def w_main_v16 : IVec S16 32 :=
  (broadcastInDim S16 ![] bcast_S_S16) w_main_c_2

def w_main_v17 (a1 : IVec S4096 32) : IVec S16 32 :=
  (muli) (w_main_v15 a1) w_main_v16

def w_main_v18 : IVec S6144 32 :=
  (iotaInDim S6144 32 0)

def w_main_v19 : IVec S6144x1 32 :=
  (broadcastInDim S6144x1 ![0] bcast_S6144_S6144x1_0) w_main_v18

def w_main_v20 (a1 : IVec S4096 32) : IVec S1x16 32 :=
  (broadcastInDim S1x16 ![1] bcast_S16_S1x16_1) (w_main_v17 a1)

def w_main_v21 : IVec S6144x16 32 :=
  (broadcastInDim S6144x16 ![0, 1] bcast_S6144x1_S6144x16_0_1) w_main_v19

def w_main_v22 (a1 : IVec S4096 32) : IVec S6144x16 32 :=
  (broadcastInDim S6144x16 ![0, 1] bcast_S1x16_S6144x16_0_1) (w_main_v20 a1)

def w_main_v23 (a1 : IVec S4096 32) : IVec S6144x16 1 :=
  (cmpi .sge) w_main_v21 (w_main_v22 a1)

def w_main_v24 (a1 : IVec S4096 32) : IVec S6144x16 32 :=
  ((extui 32 · natLt_1_32)) (w_main_v23 a1)

def w_main_c_3 : IVec S_ 32 :=
  (constantI S_ 32 0#32)

def w_main_v25 (a1 : IVec S4096 32) : IVec S6144 32 :=
  ((fun x v => Host.reduce IntOp.addi x v reducesTo_S6144x16_S6144_d1 h_S_)) (w_main_v24 a1) w_main_c_3

def w_main_c_4 : IVec S_ 32 :=
  (constantI S_ 32 1#32)

def w_main_v26 : IVec S6144 32 :=
  (broadcastInDim S6144 ![] bcast_S_S6144) w_main_c_4

def w_main_v27 (a1 : IVec S4096 32) : IVec S6144 32 :=
  (subi) (w_main_v25 a1) w_main_v26

def w_main_c_5 : IVec S_ 32 :=
  (constantI S_ 32 0#32)

def w_main_c_6 : IVec S_ 32 :=
  (constantI S_ 32 15#32)

def w_main_call4_v0 : IVec S_ 32 :=
  id w_main_c_5

def w_main_call4_v1 : IVec S6144 32 :=
  (broadcastInDim S6144 ![] bcast_S_S6144) w_main_call4_v0

def w_main_call4_v2 (a1 : IVec S4096 32) : IVec S6144 32 :=
  maxsi w_main_call4_v1 (w_main_v27 a1)

def w_main_call4_v3 : IVec S_ 32 :=
  id w_main_c_6

def w_main_call4_v4 : IVec S6144 32 :=
  (broadcastInDim S6144 ![] bcast_S_S6144) w_main_call4_v3

def w_main_v28 (a1 : IVec S4096 32) : IVec S6144 32 :=
  minsi w_main_call4_v4 (w_main_call4_v2 a1)

def w_main_v29 (a1 : IVec S4096 32) : IVec S6144 32 :=
  Cert.TakeAt.take (N := 16) (n := 6144) 16#32 15#32 2147483648#32 bcast_S_S6144 bcast_S6144_S6144x1_0 bcast_S_S6144x1 bcast_S1_S1x1_1 bcast_S1x1_S6144x1_0_1
    reducesTo_S6144x1_S6144_d1 h_S_ gather_S16_S6144x1_S6144_n_0_n_n_0_1_1 (w_main_v17 a1) (w_main_v28 a1)

def w_main_v30 (a1 : IVec S4096 32) : IVec S6144 32 :=
  (subi) w_main_v18 (w_main_v29 a1)

def w_main_v31 (a1 : IVec S4096 32) : IVec S6144 32 :=
  Cert.TakeAt.take (N := 16) (n := 6144) 16#32 15#32 2147483648#32 bcast_S_S6144 bcast_S6144_S6144x1_0 bcast_S_S6144x1 bcast_S1_S1x1_1 bcast_S1x1_S6144x1_0_1
    reducesTo_S6144x1_S6144_d1 h_S_ gather_S16_S6144x1_S6144_n_0_n_n_0_1_1 (w_main_v8 a1) (w_main_v28 a1)

def w_main_v32 (a1 : IVec S4096 32) : IVec S6144 1 :=
  (cmpi .slt) (w_main_v30 a1) (w_main_v31 a1)

def w_main_v33 (a1 : IVec S4096 32) : IVec S6144 32 :=
  Cert.TakeAt.take (N := 16) (n := 6144) 16#32 15#32 2147483648#32 bcast_S_S6144 bcast_S6144_S6144x1_0 bcast_S_S6144x1 bcast_S1_S1x1_1 bcast_S1x1_S6144x1_0_1
    reducesTo_S6144x1_S6144_d1 h_S_ gather_S16_S6144x1_S6144_n_0_n_n_0_1_1 (w_main_v10 a1) (w_main_v28 a1)

def w_main_v34 (a1 : IVec S4096 32) : IVec S6144 32 :=
  (addi) (w_main_v33 a1) (w_main_v30 a1)

def w_main_c_7 : IVec S_ 32 :=
  (constantI S_ 32 0#32)

def w_main_c_8 : IVec S_ 32 :=
  (constantI S_ 32 4095#32)

def w_main_call8_v0 : IVec S_ 32 :=
  id w_main_c_7

def w_main_call8_v1 : IVec S6144 32 :=
  (broadcastInDim S6144 ![] bcast_S_S6144) w_main_call8_v0

def w_main_call8_v2 (a1 : IVec S4096 32) : IVec S6144 32 :=
  maxsi w_main_call8_v1 (w_main_v34 a1)

def w_main_call8_v3 : IVec S_ 32 :=
  id w_main_c_8

def w_main_call8_v4 : IVec S6144 32 :=
  (broadcastInDim S6144 ![] bcast_S_S6144) w_main_call8_v3

def w_main_v35 (a1 : IVec S4096 32) : IVec S6144 32 :=
  minsi w_main_call8_v4 (w_main_call8_v2 a1)

def w_main_v36 (a1 : IVec S4096 32) : IVec S6144 32 :=
  Cert.TakeAt.take (N := 4096) (n := 6144) 4096#32 4095#32 2147483648#32 bcast_S_S6144 bcast_S6144_S6144x1_0 bcast_S_S6144x1 bcast_S1_S1x1_1 bcast_S1x1_S6144x1_0_1
    reducesTo_S6144x1_S6144_d1 h_S_ gather_S4096_S6144x1_S6144_n_0_n_n_0_1_1 (w_main_v0 a1) (w_main_v35 a1)

def w_main_c_9 : IVec S_ 32 :=
  (constantI S_ 32 4096#32)

def w_main_call10_v0 : IVec S6144 32 :=
  (broadcastInDim S6144 ![] bcast_S_S6144) w_main_c_9

def w_main_v37 (a1 : IVec S4096 32) : IVec S6144 32 :=
  select (w_main_v32 a1) (w_main_v36 a1) w_main_call10_v0

def w_main_v38 : IVec S48 32 :=
  (iotaInDim S48 32 0)

def w_main_c_10 : IVec S_ 32 :=
  (constantI S_ 32 128#32)

def w_main_v39 : IVec S48 32 :=
  (broadcastInDim S48 ![] bcast_S_S48) w_main_c_10

def w_main_v40 : IVec S48 32 :=
  (muli) w_main_v38 w_main_v39

def w_main_v41 (a1 : IVec S4096 32) : IVec S48 32 :=
  Cert.TakeAt.take (N := 6144) (n := 48) 6144#32 6143#32 2147483648#32 bcast_S_S48 bcast_S48_S48x1_0 bcast_S_S48x1 bcast_S1_S1x1_1 bcast_S1x1_S48x1_0_1
    reducesTo_S48x1_S48_d1 h_S_ gather_S6144_S48x1_S48_n_0_n_n_0_1_1 (w_main_v28 a1) w_main_v40

def w_main_c_11 : IVec S_ 32 :=
  (constantI S_ 32 0#32)

def w_main_v42 : IVec S6144 32 :=
  (broadcastInDim S6144 ![] bcast_S_S6144) w_main_c_11

def w_main_v43 (a1 : IVec S4096 32) : IVec S6144 1 :=
  (cmpi .slt) (w_main_v36 a1) w_main_v42

def w_main_c_12 : IVec S_ 32 :=
  (constantI S_ 32 4096#32)

def w_main_v44 : IVec S6144 32 :=
  (broadcastInDim S6144 ![] bcast_S_S6144) w_main_c_12

def w_main_v45 (a1 : IVec S4096 32) : IVec S6144 32 :=
  (addi) (w_main_v36 a1) w_main_v44

def w_main_v46 (a1 : IVec S4096 32) : IVec S6144 32 :=
  (select) (w_main_v43 a1) (w_main_v45 a1) (w_main_v36 a1)

def w_main_v47 (a1 : IVec S4096 32) : IVec S6144x1 32 :=
  (broadcastInDim S6144x1 ![0] bcast_S6144_S6144x1_0) (w_main_v46 a1)

def w_main_v48 {F : FTy → Type} [FloatOps F] (a0 : FVec F S4096x1024 .f32) (a1 : IVec S4096 32) : FVec F S6144x1024 .f32 :=
  ((fun x i => Host.gather gather_S4096x1024_S6144x1_S6144x1024_1_0_n_n_0_1_11024 x i)) a0 (w_main_v47 a1)

def w_main_v49 {F : FTy → Type} [FloatOps F] (a0 : FVec F S4096x1024 .f32) (a1 : IVec S4096 32) : FVec F S6144x1024 .bf16 :=
  ((truncf .bf16 · bitsLt_bf16_f32)) (w_main_v48 (F := F) a0 a1)

def w_main_v50 {F : FTy → Type} [FloatOps F] (a2 : FVec F S16x4096x1024 .f32) : FVec F S16x4096x1024 .bf16 :=
  ((truncf .bf16 · bitsLt_bf16_f32)) a2

def w_main_v51 {F : FTy → Type} [FloatOps F] (a3 : FVec F S16x1024x4096 .f32) : FVec F S16x1024x4096 .bf16 :=
  ((truncf .bf16 · bitsLt_bf16_f32)) a3

def w_main_v52 {F : FTy → Type} [FloatOps F] (a4 : FVec F S16x4096 .f32) : FVec F S16x1x4096 .f32 :=
  fun i => shapeCast S16x1x4096 a4 shapeCasts_S16x4096_S16x1x4096 i

def w_main_v53 {F : FTy → Type} [FloatOps F] (a5 : FVec F S16x1024 .f32) : FVec F S16x1x1024 .f32 :=
  fun i => shapeCast S16x1x1024 a5 shapeCasts_S16x1024_S16x1x1024 i

def w_main_cst {F : FTy → Type} [FloatOps F] : FVec F S_ .f32 :=
  (constant (F := F) S_ .f32 0x00000000#32)

def w_main_v55 {F : FTy → Type} [FloatOps F] : FVec F S4097x1024 .f32 :=
  (broadcastInDim S4097x1024 ![] bcast_S_S4097x1024) (w_main_cst (F := F))

def w_main_c_13 : IVec S_ 32 :=
  (constantI S_ 32 0#32)

def w_main_v56 : IVec S6144 32 :=
  (broadcastInDim S6144 ![] bcast_S_S6144) w_main_c_13

def w_main_v57 (a1 : IVec S4096 32) : IVec S6144 1 :=
  (cmpi .slt) (w_main_v37 a1) w_main_v56

def w_main_c_14 : IVec S_ 32 :=
  (constantI S_ 32 4097#32)

def w_main_v58 : IVec S6144 32 :=
  (broadcastInDim S6144 ![] bcast_S_S6144) w_main_c_14

def w_main_v59 (a1 : IVec S4096 32) : IVec S6144 32 :=
  (addi) (w_main_v37 a1) w_main_v58

def w_main_v60 (a1 : IVec S4096 32) : IVec S6144 32 :=
  (select) (w_main_v57 a1) (w_main_v59 a1) (w_main_v37 a1)

def w_main_v61 (a1 : IVec S4096 32) : IVec S6144x1 32 :=
  (broadcastInDim S6144x1 ![0] bcast_S6144_S6144x1_0) (w_main_v60 a1)

def w_main_v62 {F : FTy → Type} [FloatOps F] (a1 : IVec S4096 32) (p : FVec F S6144x1024 .f32) : FVec F S4097x1024 .f32 :=
  ((fun x i u => Host.scatter scatter_S4097x1024_S6144x1_S6144x1024_1_0_0_1 (fun _ b => b) x i u)) (w_main_v55 (F := F)) (w_main_v61 a1) p

def w_main_v63 {F : FTy → Type} [FloatOps F] (a1 : IVec S4096 32) (p : FVec F S6144x1024 .f32) : FVec F S4096x1024 .f32 :=
  ((extractStridedSlice S4096x1024 ![0, 0] · slices_S4097x1024_S4096x1024_0_0)) (w_main_v62 (F := F) a1 p)

end Cert.KernelIdeal

end
-- ==== Proof.HostRead.lean ====
import proofs.«428696_j3496103379639_3_alg».proof.Proof.HostFns
import proofs.«428696_j3496103379639_3_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.Sem
open Idealize.ShloMosaic.StableHlo
open Idealize.ShloMosaic.Pipeline (Dat Cfg)

variable {F : FTy → Type} [FloatOps F]

variable (m : (ℓ : Loc nD τ sig) → Buf (Elt F) ℓ)

local macro "read_entry" : tactic =>
  `(tactic| (dsimp only [V, V0]
             simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
             after_results_simp
             try simp only [TRef.ofBuf, TRef.toBuf, cast_eq]))

theorem V_v50 (c : Dev nD) : V m c main_v50 = w_main_v50 (F := F) (m ((c : Thread nD τ).loc main_arg2)) := by
  read_entry; rfl

theorem V_v51 (c : Dev nD) : V m c main_v51 = w_main_v51 (F := F) (m ((c : Thread nD τ).loc main_arg3)) := by
  read_entry; rfl

theorem V_v52 (c : Dev nD) : V m c main_v52 = w_main_v52 (F := F) (m ((c : Thread nD τ).loc main_arg4)) := by
  read_entry; rfl

theorem V_v53 (c : Dev nD) : V m c main_v53 = w_main_v53 (F := F) (m ((c : Thread nD τ).loc main_arg5)) := by
  read_entry; rfl

theorem V_v37 (c : Dev nD) : V m c main_v37 = w_main_v37 (m ((c : Thread nD τ).loc main_arg1)) := by
  read_entry; rfl

theorem V_v41 (c : Dev nD) : V m c main_v41 = w_main_v41 (m ((c : Thread nD τ).loc main_arg1)) := by
  read_entry; rfl

theorem V_tbl : tbl m 0 = w_main_v41 (m (((0 : Dev nD) : Thread nD τ).loc main_arg1)) := by
  show V m (0 : Dev nD) main_v41 = _
  exact V_v41 m 0

set_option maxHeartbeats 400000 in
theorem V_v49 (c : Dev nD) : V m c main_v49 = w_main_v49 (F := F) (m ((c : Thread nD τ).loc main_arg0)) (m ((c : Thread nD τ).loc main_arg1)) := by
  read_entry; rfl

end Cert.KernelIdeal.Gen

end
-- ==== Proof.HostTail.lean ====
import proofs.«428696_j3496103379639_3_alg».proof.Proof.HostFns
import proofs.«428696_j3496103379639_3_alg».proof.Proof.HostRead
import proofs.«428696_j3496103379639_3_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.Sem
open Idealize.ShloMosaic.StableHlo
open Idealize.ShloMosaic.Pipeline (Dat Cfg)

variable {F : FTy → Type} [FloatOps F]

variable (m : (ℓ : Loc nD τ sig) → Buf (Elt F) ℓ)

set_option maxHeartbeats 1000000 in
/-- The result buffer after the scatter and the slice, as functions of the labels and the region's output. -/
theorem tail_v63 (hO : Ok m) (c : Dev nD) :
    Pipeline.afterTail pcfgs (fun _ => adm m hO) (dats m hO) 0 (V0 m) [hostOps1] c main_v63
      = w_main_v63 (F := F) (m ((c : Thread nD τ).loc main_arg1)) ((dats m hO 0 c).arrAt 5 (cfgM m hO).N) := by
  have h37 : Pipeline.withArrays (Pipeline.pin pcfgs (fun _ => adm m hO) 0).spec c (V0 m c)
      (fun w => (dats m hO 0 c).arrAt w (Pipeline.pin pcfgs (fun _ => adm m hO) 0).N) (Proc.devRef .tc main_v37)
      = w_main_v37 (m ((c : Thread nD τ).loc main_arg1)) := by
    rw [Pipeline.withArrays_of_ne _ c (V0 m c) _ main_v37 (by exact (by decide : ∀ w, Pipeline.arrRef spec0 w ≠ main_v37))]
    exact V_v37 m c
  have h54 : Pipeline.withArrays (Pipeline.pin pcfgs (fun _ => adm m hO) 0).spec c (V0 m c)
      (fun w => (dats m hO 0 c).arrAt w (Pipeline.pin pcfgs (fun _ => adm m hO) 0).N) (Proc.devRef .tc main_v54)
      = (dats m hO 0 c).arrAt 5 (cfgM m hO).N :=
    Pipeline.withArrays_arr spec0 (launch0 (F := F)).win.arr_inj c _ _ 5
  unfold Pipeline.afterTail
  simp only [hostOps1, List.flatten_cons, List.flatten_nil, List.append_nil]
  after_results_simp
  rw [h37, h54]
  simp only [w_main_v63, w_main_v62, w_main_v61, w_main_v60, w_main_v59, w_main_v58, w_main_v57, w_main_v56, w_main_v55,
    w_main_c_14, w_main_c_13, w_main_cst] <;> rfl

end Cert.KernelIdeal.Gen

end
-- ==== Proof.Takes.lean ====
import proofs.«428696_j3496103379639_3_alg».proof.Proof.HostFns
import Idealize.ShloMosaic.Lib.ValueIdx

noncomputable section

namespace Cert.KernelIdeal

open Idealize.ShloMosaic Idealize.ShloMosaic.TcCoe Idealize.SL.Sem Idealize.ShloMosaic.ValueIdx

variable [Facts]
open Facts₀ Facts

/-! The program's five index reads, each at a position whose index word is in range. -/

theorem take_v29 (a1 : IVec S4096 32) (i : Fin 6144) (h : (w_main_v28 a1 (ix1 i)).toNat < 16) :
    w_main_v29 a1 (ix1 i) = w_main_v17 a1 (ix1 ⟨(w_main_v28 a1 (ix1 i)).toNat, h⟩) :=
  Cert.TakeAt.take_at (by decide) (by decide) _ _ _ rfl _ _ _ _ _ _ _ _ rfl rfl rfl rfl _ _ i h

theorem take_v31 (a1 : IVec S4096 32) (i : Fin 6144) (h : (w_main_v28 a1 (ix1 i)).toNat < 16) :
    w_main_v31 a1 (ix1 i) = w_main_v8 a1 (ix1 ⟨(w_main_v28 a1 (ix1 i)).toNat, h⟩) :=
  Cert.TakeAt.take_at (by decide) (by decide) _ _ _ rfl _ _ _ _ _ _ _ _ rfl rfl rfl rfl _ _ i h

theorem take_v33 (a1 : IVec S4096 32) (i : Fin 6144) (h : (w_main_v28 a1 (ix1 i)).toNat < 16) :
    w_main_v33 a1 (ix1 i) = w_main_v10 a1 (ix1 ⟨(w_main_v28 a1 (ix1 i)).toNat, h⟩) :=
  Cert.TakeAt.take_at (by decide) (by decide) _ _ _ rfl _ _ _ _ _ _ _ _ rfl rfl rfl rfl _ _ i h

theorem take_v36 (a1 : IVec S4096 32) (i : Fin 6144) (h : (w_main_v35 a1 (ix1 i)).toNat < 4096) :
    w_main_v36 a1 (ix1 i) = w_main_v0 a1 (ix1 ⟨(w_main_v35 a1 (ix1 i)).toNat, h⟩) :=
  Cert.TakeAt.take_at (by decide) (by decide) _ _ _ rfl _ _ _ _ _ _ _ _ rfl rfl rfl rfl _ _ i h

theorem take_v41 (a1 : IVec S4096 32) (t : Fin 48) (h : (w_main_v40 (ix1 t)).toNat < 6144) :
    w_main_v41 a1 (ix1 t) = w_main_v28 a1 (ix1 ⟨(w_main_v40 (ix1 t)).toNat, h⟩) :=
  Cert.TakeAt.take_at (by decide) (by decide) _ _ _ rfl _ _ _ _ _ _ _ _ rfl rfl rfl rfl _ _ t h

end Cert.KernelIdeal

end
-- ==== Proof.TableRange.lean ====
import proofs.«428696_j3496103379639_3_alg».proof.Proof.HostFns
import proofs.«428696_j3496103379639_3_alg».proof.Proof.Takes
import Idealize.ShloMosaic.Lib.WordArith
import Idealize.ShloMosaic.Lib.ValueIdx

set_option maxRecDepth 16384

noncomputable section

namespace Cert.KernelIdeal

open Idealize.ShloMosaic Idealize.ShloMosaic.TcCoe Idealize.SL.Sem Idealize.ShloMosaic.ValueIdx

variable [Facts]
open Facts₀ Facts

theorem clip15_lt (v : BitVec 32) : (IntOp.minsi 15#32 (IntOp.maxsi 0#32 v)).toNat < 16 := by
  have hc : (IntOp.maxsi 0#32 v).toNat < 2 ^ 31 := by
    rw [WordArith.toNat_maxsi_zero]
    have e := BitVec.toInt_eq_toNat_cond v
    have hv := v.isLt
    split at e <;> omega
  rw [WordArith.toNat_minsi_of_lt _ _ (by decide) hc]
  show min 15 (IntOp.maxsi 0#32 v).toNat < 16
  omega

theorem v28_lt (a1 : IVec S4096 32) (i : S6144.Idx) : (w_main_v28 a1 i).toNat < 16 :=
  clip15_lt (w_main_v27 a1 i)

theorem v40_toNat (t : Fin 48) : (w_main_v40 (ix1 t)).toNat = 128 * t.val := by
  have ht := t.isLt
  show (BitVec.ofNat 32 t.val * 128#32).toNat = 128 * t.val
  rw [BitVec.toNat_mul, BitVec.toNat_ofNat]
  show t.val % 2 ^ 32 * 128 % 2 ^ 32 = 128 * t.val
  omega

theorem v40_lt (t : Fin 48) : (w_main_v40 (ix1 t)).toNat < 6144 := by
  have ht := t.isLt
  rw [v40_toNat]
  omega

/-- Every word of the tile table is a clipped word, so below 16 whatever the labels. -/
theorem table_lt (a1 : IVec S4096 32) (t : Fin 48) : (w_main_v41 a1 (ix1 t)).toNat < 16 := by
  rw [take_v41 a1 t (v40_lt t)]
  exact v28_lt a1 _

end Cert.KernelIdeal

end
-- ==== Proof.OkOfPre.lean ====
import proofs.«428696_j3496103379639_3_alg».proof.KernelIdeal
import Idealize.ShloMosaic.Lib.Affine
import Idealize.ShloMosaic.Lib.ValueIdx

set_option maxRecDepth 16384

noncomputable section

namespace Cert.KernelIdeal

open Idealize.ShloMosaic Idealize.ShloMosaic.TcCoe Idealize.SL.Sem Idealize.ShloMosaic.ValueIdx

variable [Facts₀]
open Facts₀

theorem blk_inb16 (w r c : Nat) (hw : w < 16) :
    ∀ a : Fin 3, ((![w, 0, 0] : Fin 3 → Nat) a + 1) * (![1, r, c] : Fin 3 → Nat) a ≤ (![16, r, c] : Fin 3 → Nat) a := by
  intro a
  fin_cases a
  · show (w + 1) * 1 ≤ 16
    omega
  · show (0 + 1) * r ≤ r
    omega
  · show (0 + 1) * c ≤ c
    omega

/-- A word below 16 addresses one of the sixteen slabs of a stack. -/
theorem ok_of_table {F : FTy → Type} [FloatOps F] (pf : pre0.Contents (Elt F))
    (h : ∀ t : Fin 48, (pf 0 (ix1 t)).toNat < 16) : ok0 (F := F) pf := by

  have hl : ∀ x : S48.Idx, (pf 0 x).toNat < 16 := fun x => by rw [eq_ix1 x]; exact h _
  refine ⟨fun i => ?_, fun i => ?_, fun i => ?_, fun i => ?_⟩
  · obtain ⟨w, hw, e⟩ : ∃ w : BitVec 32, w.toNat < 16 ∧ cc0_transform_1 k0_off1_inb numel1_S1 pf i = ![w.toNat, 0, 0] :=
      ⟨_, hl _, rfl⟩
    have hb : ∀ a, (cc0_transform_1 k0_off1_inb numel1_S1 pf i a + 1) * S1x4096x1024.size a ≤ S16x4096x1024.size a := by
      rw [e]; exact blk_inb16 _ _ _ hw
    exact ⟨hb, Or.inr (Affine.block_words_dvd (by decide) (by decide))⟩
  · obtain ⟨w, hw, e⟩ : ∃ w : BitVec 32, w.toNat < 16 ∧ cc0_transform_2 k0_off1_inb numel1_S1 pf i = ![w.toNat, 0, 0] :=
      ⟨_, hl _, rfl⟩
    have hb : ∀ a, (cc0_transform_2 k0_off1_inb numel1_S1 pf i a + 1) * S1x1024x4096.size a ≤ S16x1024x4096.size a := by
      rw [e]; exact blk_inb16 _ _ _ hw
    exact ⟨hb, Or.inr (Affine.block_words_dvd (by decide) (by decide))⟩
  · obtain ⟨w, hw, e⟩ : ∃ w : BitVec 32, w.toNat < 16 ∧ cc0_transform_3 k0_off1_inb numel1_S1 pf i = ![w.toNat, 0, 0] :=
      ⟨_, hl _, rfl⟩
    have hb : ∀ a, (cc0_transform_3 k0_off1_inb numel1_S1 pf i a + 1) * S1x1x4096.size a ≤ S16x1x4096.size a := by
      rw [e]; exact blk_inb16 _ _ _ hw
    exact ⟨hb, Or.inl rfl⟩
  · obtain ⟨w, hw, e⟩ : ∃ w : BitVec 32, w.toNat < 16 ∧ cc0_transform_4 k0_off1_inb numel1_S1 pf i = ![w.toNat, 0, 0] :=
      ⟨_, hl _, rfl⟩
    have hb : ∀ a, (cc0_transform_4 k0_off1_inb numel1_S1 pf i a + 1) * S1x1x1024.size a ≤ S16x1x1024.size a := by
      rw [e]; exact blk_inb16 _ _ _ hw
    exact ⟨hb, Or.inl rfl⟩

end Cert.KernelIdeal

end
-- ==== Proof.Tile.lean ====
import Idealize.ShloMosaic.PureOps.Ideal
import Idealize.ShloMosaic.Lib.ValueIdx

noncomputable section

open scoped BigOperators

namespace Cert.Tile

open Idealize.ShloMosaic Idealize.ShloMosaic.ValueIdx

/-- Padded row `i` through the perceptron of segment `g`, on the arrays as the region finds them. -/
def out (xp : FVec Ideal ⟨2, ![6144, 1024]⟩ .bf16) (w1 : FVec Ideal ⟨3, ![16, 4096, 1024]⟩ .bf16)
    (w2 : FVec Ideal ⟨3, ![16, 1024, 4096]⟩ .bf16) (b1 : FVec Ideal ⟨3, ![16, 1, 4096]⟩ .f32)
    (b2 : FVec Ideal ⟨3, ![16, 1, 1024]⟩ .f32) (g : Fin 16) (i : Fin 6144) (j : Fin 1024) : EReal :=
  (∑ k : Fin 4096, max ((∑ h : Fin 1024, xp (ix2 i h) * w1 (ix3 g k h)) + b1 (ix3 g 0 k)) 0 * w2 (ix3 g j k))
    + b2 (ix3 g 0 j)

end Cert.Tile

end
-- ==== Proof.RegionPay.lean ====
import proofs.«428696_j3496103379639_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region

open Cert.KernelIdeal Cert.KernelIdeal.Gen
open Idealize.ShloMosaic Idealize.ShloMosaic.ValueIdx

theorem lhs1_0 (j : S128x4096.Idx) (k : dot_S128x1024_S4096x1024_S128x4096_1_1_0_0_n_n.contr.Idx) :
    (dot_S128x1024_S4096x1024_S128x4096_1_1_0_0_n_n.lhsIdx j k 0).val = (j 0).val := by
  unfold DotDims.lhsIdx
  rw [dif_neg (show ¬(0 : Fin S128x1024.rank) ∈ dot_S128x1024_S4096x1024_S128x4096_1_1_0_0_n_n.lhsBatch by decide),
    dif_pos (show (0 : Fin S128x1024.rank) ∈ dot_S128x1024_S4096x1024_S128x4096_1_1_0_0_n_n.lhsNonContracting by decide)]
  rfl

theorem lhs1_1 (j : S128x4096.Idx) (k : dot_S128x1024_S4096x1024_S128x4096_1_1_0_0_n_n.contr.Idx) :
    (dot_S128x1024_S4096x1024_S128x4096_1_1_0_0_n_n.lhsIdx j k 1).val = (k ⟨0, by decide⟩).val :=
  dot_S128x1024_S4096x1024_S128x4096_1_1_0_0_n_n.lhsIdx_val_of_single rfl j k

theorem rhs1_0 (j : S128x4096.Idx) (k : dot_S128x1024_S4096x1024_S128x4096_1_1_0_0_n_n.contr.Idx) :
    (dot_S128x1024_S4096x1024_S128x4096_1_1_0_0_n_n.rhsIdx j k 0).val = (j 1).val := by
  unfold DotDims.rhsIdx
  rw [dif_neg (show ¬(0 : Fin S4096x1024.rank) ∈ dot_S128x1024_S4096x1024_S128x4096_1_1_0_0_n_n.rhsBatch by decide),
    dif_pos (show (0 : Fin S4096x1024.rank) ∈ dot_S128x1024_S4096x1024_S128x4096_1_1_0_0_n_n.rhsNonContracting by decide)]
  rfl

theorem rhs1_1 (j : S128x4096.Idx) (k : dot_S128x1024_S4096x1024_S128x4096_1_1_0_0_n_n.contr.Idx) :
    (dot_S128x1024_S4096x1024_S128x4096_1_1_0_0_n_n.rhsIdx j k 1).val = (k ⟨0, by decide⟩).val :=
  dot_S128x1024_S4096x1024_S128x4096_1_1_0_0_n_n.rhsIdx_val_of_single rfl j k

theorem mm1_apply (a : FVec Ideal S128x1024 .bf16) (b : FVec Ideal S4096x1024 .bf16) (p : Fin 128) (k : Fin 4096) :
    matmul dot_S128x1024_S4096x1024_S128x4096_1_1_0_0_n_n none a b (constant S128x4096 .f32 0x00000000#32) (ix2 p k)
      = ∑ h : Fin 1024, a (ix2 p h) * b (ix2 k h) := by
  show FloatOps.matmul _ none a b _ (ix2 p k) = _
  rw [Ideal.matmul_constant_zero_apply,
    ← Equiv.sum_comp (contrEquiv1 dot_S128x1024_S4096x1024_S128x4096_1_1_0_0_n_n 1024 rfl rfl).symm]
  refine Finset.sum_congr rfl fun h _ => ?_
  have hk := contrEquiv1_symm_val dot_S128x1024_S4096x1024_S128x4096_1_1_0_0_n_n 1024 rfl rfl h
  have el : dot_S128x1024_S4096x1024_S128x4096_1_1_0_0_n_n.lhsIdx (ix2 p k)
      ((contrEquiv1 dot_S128x1024_S4096x1024_S128x4096_1_1_0_0_n_n 1024 rfl rfl).symm h) = ix2 p h := by
    funext ax; apply Fin.ext
    match ax with
    | ⟨0, _⟩ => exact lhs1_0 _ _
    | ⟨1, _⟩ => exact (lhs1_1 _ _).trans hk
  have er : dot_S128x1024_S4096x1024_S128x4096_1_1_0_0_n_n.rhsIdx (ix2 p k)
      ((contrEquiv1 dot_S128x1024_S4096x1024_S128x4096_1_1_0_0_n_n 1024 rfl rfl).symm h) = ix2 k h := by
    funext ax; apply Fin.ext
    match ax with
    | ⟨0, _⟩ => exact rhs1_0 _ _
    | ⟨1, _⟩ => exact (rhs1_1 _ _).trans hk
  rw [el, er]

theorem lhs2_0 (j : S128x1024.Idx) (k : dot_S128x4096_S1024x4096_S128x1024_1_1_0_0_n_n.contr.Idx) :
    (dot_S128x4096_S1024x4096_S128x1024_1_1_0_0_n_n.lhsIdx j k 0).val = (j 0).val := by
  unfold DotDims.lhsIdx
  rw [dif_neg (show ¬(0 : Fin S128x4096.rank) ∈ dot_S128x4096_S1024x4096_S128x1024_1_1_0_0_n_n.lhsBatch by decide),
    dif_pos (show (0 : Fin S128x4096.rank) ∈ dot_S128x4096_S1024x4096_S128x1024_1_1_0_0_n_n.lhsNonContracting by decide)]
  rfl

theorem lhs2_1 (j : S128x1024.Idx) (k : dot_S128x4096_S1024x4096_S128x1024_1_1_0_0_n_n.contr.Idx) :
    (dot_S128x4096_S1024x4096_S128x1024_1_1_0_0_n_n.lhsIdx j k 1).val = (k ⟨0, by decide⟩).val :=
  dot_S128x4096_S1024x4096_S128x1024_1_1_0_0_n_n.lhsIdx_val_of_single rfl j k

theorem rhs2_0 (j : S128x1024.Idx) (k : dot_S128x4096_S1024x4096_S128x1024_1_1_0_0_n_n.contr.Idx) :
    (dot_S128x4096_S1024x4096_S128x1024_1_1_0_0_n_n.rhsIdx j k 0).val = (j 1).val := by
  unfold DotDims.rhsIdx
  rw [dif_neg (show ¬(0 : Fin S1024x4096.rank) ∈ dot_S128x4096_S1024x4096_S128x1024_1_1_0_0_n_n.rhsBatch by decide),
    dif_pos (show (0 : Fin S1024x4096.rank) ∈ dot_S128x4096_S1024x4096_S128x1024_1_1_0_0_n_n.rhsNonContracting by decide)]
  rfl

theorem rhs2_1 (j : S128x1024.Idx) (k : dot_S128x4096_S1024x4096_S128x1024_1_1_0_0_n_n.contr.Idx) :
    (dot_S128x4096_S1024x4096_S128x1024_1_1_0_0_n_n.rhsIdx j k 1).val = (k ⟨0, by decide⟩).val :=
  dot_S128x4096_S1024x4096_S128x1024_1_1_0_0_n_n.rhsIdx_val_of_single rfl j k

theorem mm2_apply (a : FVec Ideal S128x4096 .bf16) (b : FVec Ideal S1024x4096 .bf16) (p : Fin 128) (q : Fin 1024) :
    matmul dot_S128x4096_S1024x4096_S128x1024_1_1_0_0_n_n none a b (constant S128x1024 .f32 0x00000000#32) (ix2 p q)
      = ∑ k : Fin 4096, a (ix2 p k) * b (ix2 q k) := by
  show FloatOps.matmul _ none a b _ (ix2 p q) = _
  rw [Ideal.matmul_constant_zero_apply,
    ← Equiv.sum_comp (contrEquiv1 dot_S128x4096_S1024x4096_S128x1024_1_1_0_0_n_n 4096 rfl rfl).symm]
  refine Finset.sum_congr rfl fun k _ => ?_
  have hk := contrEquiv1_symm_val dot_S128x4096_S1024x4096_S128x1024_1_1_0_0_n_n 4096 rfl rfl k
  have el : dot_S128x4096_S1024x4096_S128x1024_1_1_0_0_n_n.lhsIdx (ix2 p q)
      ((contrEquiv1 dot_S128x4096_S1024x4096_S128x1024_1_1_0_0_n_n 4096 rfl rfl).symm k) = ix2 p k := by
    funext ax; apply Fin.ext
    match ax with
    | ⟨0, _⟩ => exact lhs2_0 _ _
    | ⟨1, _⟩ => exact (lhs2_1 _ _).trans hk
  have er : dot_S128x4096_S1024x4096_S128x1024_1_1_0_0_n_n.rhsIdx (ix2 p q)
      ((contrEquiv1 dot_S128x4096_S1024x4096_S128x1024_1_1_0_0_n_n 4096 rfl rfl).symm k) = ix2 q k := by
    funext ax; apply Fin.ext
    match ax with
    | ⟨0, _⟩ => exact rhs2_0 _ _
    | ⟨1, _⟩ => exact (rhs2_1 _ _).trans hk
  rw [el, er]

/-- One element of a tile's stored block: the two-layer perceptron of the block's operands. -/
theorem pay_apply (x0 : FVec Ideal S128x1024 .bf16) (x1 : FVec Ideal S1x4096x1024 .bf16) (x2 : FVec Ideal S1x1024x4096 .bf16)
    (x3 : FVec Ideal S1x1x4096 .f32) (x4 : FVec Ideal S1x1x1024 .f32) (p : Fin 128) (q : Fin 1024) :
    k0_pay1 (F := Ideal) x0 x1 x2 x3 x4 (ix2 p q)
      = (∑ k : Fin 4096, max ((∑ h : Fin 1024, x0 (ix2 p h) * x1 (ix3 (0 : Fin 1) k h)) + x3 (ix3 (0 : Fin 1) (0 : Fin 1) k)) 0
            * x2 (ix3 (0 : Fin 1) q k)) + x4 (ix3 (0 : Fin 1) (0 : Fin 1) q) := by
  unfold k0_pay1
  rw [addf_apply]
  refine congrArg₂ (· + ·) ?_ ?_
  · refine (mm2_apply _ _ p q).trans (Finset.sum_congr rfl fun k _ => ?_)
    refine congrArg₂ (· * ·) ?_ (shapeCast_1ab_ab_apply x2 _ q k)
    rw [truncf_apply, maximumf_apply, addf_apply]
    refine congrArg₂ max (congrArg₂ (· + ·) ?_ ?_) ?_
    · rw [shapeCast_self]
      refine (mm1_apply _ _ p k).trans (Finset.sum_congr rfl fun h _ => ?_)
      exact congrArg (x0 (ix2 p h) * ·) (shapeCast_1ab_ab_apply x1 _ k h)
    · exact (broadcastTo_1b_ab_apply _ _ p k).trans (shapeCast_1ab_ab_apply x3 _ (0 : Fin 1) k)
    · exact Ideal.ofBits_zero_f32
  · exact (broadcastTo_1b_ab_apply _ _ p q).trans (shapeCast_1ab_ab_apply x4 _ (0 : Fin 1) q)

end Cert.KernelIdeal.Region

end
-- ==== Proof.RegionMaps.lean ====
import proofs.«428696_j3496103379639_3_alg».proof.Proof.Gen.KernelIdeal.Frame
import Idealize.ShloMosaic.Lib.ValueIdx
import Idealize.ShloMosaic.Lib.Pipeline.Value
import Idealize.ShloMosaic.Lib.Tactic

set_option maxRecDepth 16384

noncomputable section

open scoped BigOperators

namespace Cert.KernelIdeal.Region

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

section Piece
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem piece (c : Dev nD) (i : grid0.Coords) (arg2 : Memref sig .tc .vmem S128x1024 .bf16) (harg2 : arg2.IsWhole) (arg3 : Memref sig .tc .vmem S1x4096x1024 .bf16) (harg3 : arg3.IsWhole) (arg4 : Memref sig .tc .vmem S1x1024x4096 .bf16) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S128x1024 .f32) (harg7 : arg7.IsWhole)
    (x0 : Vec F S128x1024 .bf16) (x1 : Vec F S1x4096x1024 .bf16) (x2 : Vec F S1x1024x4096 .bf16) (x3 : Vec F S1x1x4096 .f32) (x4 : Vec F S1x1x1024 .f32) (xt0 : TbBuf0 (F := F) c tbM0_0) :
    out0_A_5 c i arg2 harg2 arg3 harg3 arg4 harg4 arg5 harg5 arg6 harg6 arg7 harg7 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S128x1024) hz2, View.ld_unit_zero (S := S1x4096x1024) hz3, View.ld_unit_zero (S := S1x1024x4096) hz3,
    View.ld_unit_zero (S := S1x1x4096) hz3, View.ld_unit_zero (S := S1x1x1024) hz3]

end Piece

section Maps
variable {F : FTy → Type} [FloatOps F]

theorem off1 : ∀ t : Fin grid0.N, k0_off1 (grid0.coords t) 0 = t.val := by decide +kernel
theorem idx0 : ∀ t : Fin grid0.N, cc0_transform_0 (grid0.coords t) 0 = t.val ∧ cc0_transform_0 (grid0.coords t) 1 = 0 := by decide +kernel
theorem idx5 : ∀ t : Fin grid0.N, cc0_transform_5 (grid0.coords t) 0 = t.val ∧ cc0_transform_5 (grid0.coords t) 1 = 0 := by decide +kernel

theorem lt48 (a : (pcfg0 (F := F)).Adm) (t : Fin (cfg0 a).N) : t.val < 48 := by
  have h : (cfg0 a).N = 48 := N_0
  have := t.isLt
  omega

abbrev word (pf : pre0.Contents (Elt F)) (t : Fin 48) : BitVec 32 := pf 0 (ix1 t)

set_option maxHeartbeats 50000 in
theorem win1_index (a : (pcfg0 (F := F)).Adm) (t : Fin (cfg0 a).N) :
    ((cfg0 a).win 1).index t (0 : Fin 3) = (word a.1 ⟨t.val, lt48 a t⟩).toNat
      ∧ ((cfg0 a).win 1).index t (1 : Fin 3) = 0 ∧ ((cfg0 a).win 1).index t (2 : Fin 3) = 0 := by
  refine ⟨?_, rfl, rfl⟩
  show (a.1 0 _).toNat = (a.1 0 _).toNat
  refine congrArg (fun i => (a.1 0 i).toNat) ?_
  funext ax; apply Fin.ext
  match ax with
  | ⟨0, _⟩ =>
    show k0_off1 (grid0.coords t) 0 + 1 * 0 = t.val
    rw [off1 t]; omega

end Maps

section Reads
variable {F : FTy → Type} [FloatOps F]

set_option maxHeartbeats 100000 in
theorem read0 (a : (pcfg0 (F := F)).Adm) (t : Fin (cfg0 a).N) (X : S6144x1024.Idx → Elt F .bf16) (p : Fin 128) (h : Fin 1024) :
    (((cfg0 a).win 0).blk t).view.read (Elt F) X (ix2 p h) = X (ix2 ⟨128 * t.val + p.val, by have := lt48 a t; omega⟩ h) := by
  have hi := idx0 t
  show X _ = X _
  refine congrArg X ?_
  funext ax; apply Fin.ext
  match ax with
  | ⟨0, _⟩ =>
    show cc0_transform_0 (grid0.coords t) 0 * 128 + 1 * p.val = 128 * t.val + p.val
    rw [hi.1]; omega
  | ⟨1, _⟩ =>
    show cc0_transform_0 (grid0.coords t) 1 * 1024 + 1 * h.val = h.val
    rw [hi.2]; omega

set_option maxHeartbeats 100000 in
theorem read1 (a : (pcfg0 (F := F)).Adm) (t : Fin (cfg0 a).N) (X : S16x4096x1024.Idx → Elt F .bf16) (g : Fin 16)
    (hg : ((cfg0 a).win 1).index t (0 : Fin 3) = g.val) (k : Fin 4096) (h : Fin 1024) :
    (((cfg0 a).win 1).blk t).view.read (Elt F) X (ix3 (0 : Fin 1) k h) = X (ix3 g k h) := by
  show X _ = X _
  refine congrArg X ?_
  funext ax; apply Fin.ext
  match ax with
  | ⟨0, _⟩ =>
    show ((cfg0 a).win 1).index t (0 : Fin 3) * 1 + 1 * 0 = g.val
    rw [hg]; omega
  | ⟨1, _⟩ =>
    show 0 * 4096 + 1 * k.val = k.val
    omega
  | ⟨2, _⟩ =>
    show 0 * 1024 + 1 * h.val = h.val
    omega

end Reads

section Reads2
variable {F : FTy → Type} [FloatOps F]

set_option maxHeartbeats 50000 in
theorem win2_index (a : (pcfg0 (F := F)).Adm) (t : Fin (cfg0 a).N) :
    ((cfg0 a).win 2).index t (0 : Fin 3) = (word a.1 ⟨t.val, lt48 a t⟩).toNat
      ∧ ((cfg0 a).win 2).index t (1 : Fin 3) = 0 ∧ ((cfg0 a).win 2).index t (2 : Fin 3) = 0 := by
  refine ⟨?_, rfl, rfl⟩
  show (a.1 0 _).toNat = (a.1 0 _).toNat
  refine congrArg (fun i => (a.1 0 i).toNat) ?_
  funext ax; apply Fin.ext
  match ax with
  | ⟨0, _⟩ =>
    show k0_off1 (grid0.coords t) 0 + 1 * 0 = t.val
    rw [off1 t]; omega

set_option maxHeartbeats 50000 in
theorem win3_index (a : (pcfg0 (F := F)).Adm) (t : Fin (cfg0 a).N) :
    ((cfg0 a).win 3).index t (0 : Fin 3) = (word a.1 ⟨t.val, lt48 a t⟩).toNat
      ∧ ((cfg0 a).win 3).index t (1 : Fin 3) = 0 ∧ ((cfg0 a).win 3).index t (2 : Fin 3) = 0 := by
  refine ⟨?_, rfl, rfl⟩
  show (a.1 0 _).toNat = (a.1 0 _).toNat
  refine congrArg (fun i => (a.1 0 i).toNat) ?_
  funext ax; apply Fin.ext
  match ax with
  | ⟨0, _⟩ =>
    show k0_off1 (grid0.coords t) 0 + 1 * 0 = t.val
    rw [off1 t]; omega

set_option maxHeartbeats 50000 in
theorem win4_index (a : (pcfg0 (F := F)).Adm) (t : Fin (cfg0 a).N) :
    ((cfg0 a).win 4).index t (0 : Fin 3) = (word a.1 ⟨t.val, lt48 a t⟩).toNat
      ∧ ((cfg0 a).win 4).index t (1 : Fin 3) = 0 ∧ ((cfg0 a).win 4).index t (2 : Fin 3) = 0 := by
  refine ⟨?_, rfl, rfl⟩
  show (a.1 0 _).toNat = (a.1 0 _).toNat
  refine congrArg (fun i => (a.1 0 i).toNat) ?_
  funext ax; apply Fin.ext
  match ax with
  | ⟨0, _⟩ =>
    show k0_off1 (grid0.coords t) 0 + 1 * 0 = t.val
    rw [off1 t]; omega

set_option maxHeartbeats 50000 in
theorem word_lt (a : (pcfg0 (F := F)).Adm) (t : Fin (cfg0 a).N) : (word a.1 ⟨t.val, lt48 a t⟩).toNat < 16 := by
  have h : (((cfg0 a).win 1).index t (0 : Fin 3) + 1) * 1 ≤ 16 := ((cfg0 a).win 1).hclip (grid0.coords t) (0 : Fin 3)
  rw [(win1_index a t).1] at h
  omega

set_option maxHeartbeats 100000 in
theorem read2 (a : (pcfg0 (F := F)).Adm) (t : Fin (cfg0 a).N) (X : S16x1024x4096.Idx → Elt F .bf16) (g : Fin 16)
    (hg : ((cfg0 a).win 2).index t (0 : Fin 3) = g.val) (q : Fin 1024) (k : Fin 4096) :
    (((cfg0 a).win 2).blk t).view.read (Elt F) X (ix3 (0 : Fin 1) q k) = X (ix3 g q k) := by
  show X _ = X _
  refine congrArg X ?_
  funext ax; apply Fin.ext
  match ax with
  | ⟨0, _⟩ =>
    show ((cfg0 a).win 2).index t (0 : Fin 3) * 1 + 1 * 0 = g.val
    rw [hg]; omega
  | ⟨1, _⟩ =>
    show 0 * 1024 + 1 * q.val = q.val
    omega
  | ⟨2, _⟩ =>
    show 0 * 4096 + 1 * k.val = k.val
    omega

set_option maxHeartbeats 100000 in
theorem read3 (a : (pcfg0 (F := F)).Adm) (t : Fin (cfg0 a).N) (X : S16x1x4096.Idx → Elt F .f32) (g : Fin 16)
    (hg : ((cfg0 a).win 3).index t (0 : Fin 3) = g.val) (k : Fin 4096) :
    (((cfg0 a).win 3).blk t).view.read (Elt F) X (ix3 (0 : Fin 1) (0 : Fin 1) k) = X (ix3 g (0 : Fin 1) k) := by
  show X _ = X _
  refine congrArg X ?_
  funext ax; apply Fin.ext
  match ax with
  | ⟨0, _⟩ =>
    show ((cfg0 a).win 3).index t (0 : Fin 3) * 1 + 1 * 0 = g.val
    rw [hg]; omega
  | ⟨1, _⟩ =>
    show 0 * 1 + 1 * 0 = 0
    omega
  | ⟨2, _⟩ =>
    show 0 * 4096 + 1 * k.val = k.val
    omega

set_option maxHeartbeats 100000 in
theorem read4 (a : (pcfg0 (F := F)).Adm) (t : Fin (cfg0 a).N) (X : S16x1x1024.Idx → Elt F .f32) (g : Fin 16)
    (hg : ((cfg0 a).win 4).index t (0 : Fin 3) = g.val) (q : Fin 1024) :
    (((cfg0 a).win 4).blk t).view.read (Elt F) X (ix3 (0 : Fin 1) (0 : Fin 1) q) = X (ix3 g (0 : Fin 1) q) := by
  show X _ = X _
  refine congrArg X ?_
  funext ax; apply Fin.ext
  match ax with
  | ⟨0, _⟩ =>
    show ((cfg0 a).win 4).index t (0 : Fin 3) * 1 + 1 * 0 = g.val
    rw [hg]; omega
  | ⟨1, _⟩ =>
    show 0 * 1 + 1 * 0 = 0
    omega
  | ⟨2, _⟩ =>
    show 0 * 1024 + 1 * q.val = q.val
    omega

set_option maxHeartbeats 100000 in
theorem read5 (a : (pcfg0 (F := F)).Adm) (t : Fin (cfg0 a).N) (X : S6144x1024.Idx → Elt F .f32) (p : Fin 128) (q : Fin 1024) :
    (((cfg0 a).win 5).blk t).view.read (Elt F) X (ix2 p q) = X (ix2 ⟨128 * t.val + p.val, by have := lt48 a t; omega⟩ q) := by
  have hi := idx5 t
  show X _ = X _
  refine congrArg X ?_
  funext ax; apply Fin.ext
  match ax with
  | ⟨0, _⟩ =>
    show cc0_transform_5 (grid0.coords t) 0 * 128 + 1 * p.val = 128 * t.val + p.val
    rw [hi.1]; omega
  | ⟨1, _⟩ =>
    show cc0_transform_5 (grid0.coords t) 1 * 1024 + 1 * q.val = q.val
    rw [hi.2]; omega

set_option maxHeartbeats 100000 in
/-- The 48 tiles' blocks cover the padded array. -/
theorem cover (a : (pcfg0 (F := F)).Adm) (i : S6144x1024.Idx) :
    ∃ t : Fin (cfg0 a).N, ((cfg0 a).win 5).flush t = true ∧ i ∈ (((cfg0 a).win 5).blk t).view.set := by
  have hi0 : (i 0).val < 6144 := idx2_lt0 i
  have hi1 : (i 1).val < 1024 := idx2_lt1 i
  have hN : (cfg0 a).N = 48 := N_0
  have hlt : (i 0).val / 128 < (cfg0 a).N := by omega
  have hi : cc0_transform_5 (grid0.coords ⟨(i 0).val / 128, hlt⟩) 0 = (i 0).val / 128
      ∧ cc0_transform_5 (grid0.coords ⟨(i 0).val / 128, hlt⟩) 1 = 0 := idx5 ⟨(i 0).val / 128, hlt⟩
  refine ⟨⟨(i 0).val / 128, hlt⟩, flush0_5 a _, ?_⟩
  have e : (((cfg0 a).win 5).blk ⟨(i 0).val / 128, hlt⟩).view.set = (((cfg0 a).win 5).rect ⟨(i 0).val / 128, hlt⟩).set :=
    View.set_slice_whole main_v54 (((cfg0 a).win 5).rect ⟨(i 0).val / 128, hlt⟩)
  rw [e]
  refine Rect.mem_set_unit.mpr ?_
  intro ax
  match ax with
  | ⟨0, _⟩ =>
    show cc0_transform_5 (grid0.coords ⟨(i 0).val / 128, hlt⟩) 0 * 128 ≤ (i 0).val
      ∧ (i 0).val < cc0_transform_5 (grid0.coords ⟨(i 0).val / 128, hlt⟩) 0 * 128 + 128
    rw [hi.1]; omega
  | ⟨1, _⟩ =>
    show cc0_transform_5 (grid0.coords ⟨(i 0).val / 128, hlt⟩) 1 * 1024 ≤ (i 1).val
      ∧ (i 1).val < cc0_transform_5 (grid0.coords ⟨(i 0).val / 128, hlt⟩) 1 * 1024 + 1024
    rw [hi.2]; omega

end Reads2

end Cert.KernelIdeal.Region

end
-- ==== Proof.Region.lean ====
import proofs.«428696_j3496103379639_3_alg».proof.Proof.Gen.KernelIdeal.Frame
import proofs.«428696_j3496103379639_3_alg».proof.Proof.Tile
import proofs.«428696_j3496103379639_3_alg».proof.Proof.RegionPay
import proofs.«428696_j3496103379639_3_alg».proof.Proof.RegionMaps
import Idealize.ShloMosaic.Lib.ValueIdx
import Idealize.ShloMosaic.Lib.Pipeline.Value

set_option maxRecDepth 16384

noncomputable section

open scoped BigOperators

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat)

section Value

theorem point_value (X0 : FVec Ideal S6144x1024 .bf16) (X1 : FVec Ideal S16x4096x1024 .bf16) (X2 : FVec Ideal S16x1024x4096 .bf16)
    (X3 : FVec Ideal S16x1x4096 .f32) (X4 : FVec Ideal S16x1x1024 .f32)
    (b0 : FVec Ideal S128x1024 .bf16) (b1 : FVec Ideal S1x4096x1024 .bf16) (b2 : FVec Ideal S1x1024x4096 .bf16)
    (b3 : FVec Ideal S1x1x4096 .f32) (b4 : FVec Ideal S1x1x1024 .f32) (g : Fin 16) (r : Fin 6144) (p : Fin 128) (q : Fin 1024)
    (h0 : ∀ h, b0 (ix2 p h) = X0 (ix2 r h)) (h1 : ∀ k h, b1 (ix3 (0 : Fin 1) k h) = X1 (ix3 g k h))
    (h2 : ∀ q k, b2 (ix3 (0 : Fin 1) q k) = X2 (ix3 g q k)) (h3 : ∀ k, b3 (ix3 (0 : Fin 1) (0 : Fin 1) k) = X3 (ix3 g (0 : Fin 1) k))
    (h4 : ∀ q, b4 (ix3 (0 : Fin 1) (0 : Fin 1) q) = X4 (ix3 g (0 : Fin 1) q)) :
    k0_pay1 (F := Ideal) b0 b1 b2 b3 b4 (ix2 p q) = Cert.Tile.out X0 X1 X2 X3 X4 g r q := by
  rw [pay_apply]
  unfold Cert.Tile.out
  simp only [h0, h1, h2, h3, h4]

def G (X0 : FVec Ideal S6144x1024 .bf16) (X1 : FVec Ideal S16x4096x1024 .bf16) (X2 : FVec Ideal S16x1024x4096 .bf16)
    (X3 : FVec Ideal S16x1x4096 .f32) (X4 : FVec Ideal S16x1x1024 .f32) (pf : pre0.Contents (Elt Ideal)) : FVec Ideal S6144x1024 .f32 :=
  fun idx => Cert.Tile.out X0 X1 X2 X3 X4
    ⟨(word pf ⟨(idx 0).val / 128, by have := idx2_lt0 idx; omega⟩).toNat % 16, Nat.mod_lt _ (by decide)⟩ (idx 0) (idx 1)

theorem G_row (X0 : FVec Ideal S6144x1024 .bf16) (X1 : FVec Ideal S16x4096x1024 .bf16) (X2 : FVec Ideal S16x1024x4096 .bf16)
    (X3 : FVec Ideal S16x1x4096 .f32) (X4 : FVec Ideal S16x1x1024 .f32) (pf : pre0.Contents (Elt Ideal))
    (t : Fin 48) (p : Fin 128) (q : Fin 1024) (hr : 128 * t.val + p.val < 6144) :
    G X0 X1 X2 X3 X4 pf (ix2 ⟨128 * t.val + p.val, hr⟩ q)
      = Cert.Tile.out X0 X1 X2 X3 X4 ⟨(word pf t).toNat % 16, Nat.mod_lt _ (by decide)⟩ ⟨128 * t.val + p.val, hr⟩ q := by
  show Cert.Tile.out X0 X1 X2 X3 X4 ⟨(word pf ⟨(128 * t.val + p.val) / 128, _⟩).toNat % 16, _⟩ ⟨128 * t.val + p.val, hr⟩ q = _
  refine congrArg (fun g => Cert.Tile.out X0 X1 X2 X3 X4 g ⟨128 * t.val + p.val, hr⟩ q) (Fin.ext ?_)
  refine congrArg (fun s : Fin 48 => (word pf s).toNat % 16) (Fin.ext ?_)
  show (128 * t.val + p.val) / 128 = t.val
  omega

theorem G_apply (X0 : FVec Ideal S6144x1024 .bf16) (X1 : FVec Ideal S16x4096x1024 .bf16) (X2 : FVec Ideal S16x1024x4096 .bf16)
    (X3 : FVec Ideal S16x1x4096 .f32) (X4 : FVec Ideal S16x1x1024 .f32) (pf : pre0.Contents (Elt Ideal)) (i : Fin 6144) (j : Fin 1024) :
    G X0 X1 X2 X3 X4 pf (ix2 i j)
      = Cert.Tile.out X0 X1 X2 X3 X4 ⟨(pf 0 (ix1 ⟨i.val / 128, by omega⟩)).toNat % 16, Nat.mod_lt _ (by decide)⟩ i j := rfl

set_option maxHeartbeats 200000 in
theorem block_value (a : (pcfg0 (F := Ideal)).Adm) (pf : pre0.Contents (Elt Ideal)) (hpf : a.1 = pf) (t : Fin (cfg0 a).N)
    (X0 : FVec Ideal S6144x1024 .bf16) (X1 : FVec Ideal S16x4096x1024 .bf16) (X2 : FVec Ideal S16x1024x4096 .bf16)
    (X3 : FVec Ideal S16x1x4096 .f32) (X4 : FVec Ideal S16x1x1024 .f32) (p : Fin 128) (q : Fin 1024) :
    k0_pay1 (F := Ideal) ((((cfg0 a).win 0).blk t).view.read (Elt Ideal) X0) ((((cfg0 a).win 1).blk t).view.read (Elt Ideal) X1)
        ((((cfg0 a).win 2).blk t).view.read (Elt Ideal) X2) ((((cfg0 a).win 3).blk t).view.read (Elt Ideal) X3)
        ((((cfg0 a).win 4).blk t).view.read (Elt Ideal) X4) (ix2 p q)
      = (((cfg0 a).win 5).blk t).view.read (Elt Ideal) (G X0 X1 X2 X3 X4 pf) (ix2 p q) := by
  subst hpf
  have ht : t.val < 48 := lt48 a t
  have hw : (word a.1 ⟨t.val, ht⟩).toNat < 16 := word_lt a t
  have hr : 128 * t.val + p.val < 6144 := by have := p.isLt; omega
  have hg : (word a.1 ⟨t.val, ht⟩).toNat = (word a.1 ⟨t.val, ht⟩).toNat % 16 := (Nat.mod_eq_of_lt hw).symm
  refine Eq.trans ?_ (read5 a t (G X0 X1 X2 X3 X4 a.1) p q).symm
  refine Eq.trans ?_ (G_row X0 X1 X2 X3 X4 a.1 ⟨t.val, ht⟩ p q hr).symm
  exact point_value X0 X1 X2 X3 X4
    ((((cfg0 a).win 0).blk t).view.read (Elt Ideal) X0) ((((cfg0 a).win 1).blk t).view.read (Elt Ideal) X1)
    ((((cfg0 a).win 2).blk t).view.read (Elt Ideal) X2) ((((cfg0 a).win 3).blk t).view.read (Elt Ideal) X3)
    ((((cfg0 a).win 4).blk t).view.read (Elt Ideal) X4)
    ⟨(word a.1 ⟨t.val, ht⟩).toNat % 16, Nat.mod_lt _ (by decide)⟩ ⟨128 * t.val + p.val, hr⟩ p q
    (fun h => read0 a t X0 p h)
    (fun k h => read1 a t X1 _ ((win1_index a t).1.trans hg) k h)
    (fun q k => read2 a t X2 _ ((win2_index a t).1.trans hg) q k)
    (fun k => read3 a t X3 _ ((win3_index a t).1.trans hg) k)
    (fun q => read4 a t X4 _ ((win4_index a t).1.trans hg) q)

variable (m : (ℓ : Loc nD τ sig) → Buf (Elt Ideal) ℓ)

abbrev arr0 (c : Dev nD) : FVec Ideal S6144x1024 .bf16 := V m c main_v49
abbrev arr1 (c : Dev nD) : FVec Ideal S16x4096x1024 .bf16 := V m c main_v50
abbrev arr2 (c : Dev nD) : FVec Ideal S16x1024x4096 .bf16 := V m c main_v51
abbrev arr3 (c : Dev nD) : FVec Ideal S16x1x4096 .f32 := V m c main_v52
abbrev arr4 (c : Dev nD) : FVec Ideal S16x1x1024 .f32 := V m c main_v53

set_option maxHeartbeats 200000 in
theorem outs_eq (hO : Gen.Ok m) (c : Dev nD) (t : Fin (cfgM m hO).N) :
    outsAt0 m hO c t = k0_pay1 (F := Ideal) (iblk m hO c 0 t) (iblk m hO c 1 t) (iblk m hO c 2 t) (iblk m hO c 3 t) (iblk m hO c 4 t) := by
  unfold outsAt0
  exact piece (F := Ideal) c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t)
    (iblk m hO c 0 t) (iblk m hO c 1 t) (iblk m hO c 2 t) (iblk m hO c 3 t) (iblk m hO c 4 t) (tbl m 0)

set_option maxHeartbeats 200000 in
theorem flushed_eq (hO : Gen.Ok m) (c : Dev nD) (t : Fin (cfgM m hO).N) :
    (dats m hO 0 c).flushed 5 t
      = (((cfgM m hO).win 5).blk t).view.read (Elt Ideal) (G (arr0 m c) (arr1 m c) (arr2 m c) (arr3 m c) (arr4 m c) (tbl m)) := by
  show ((cfgM m hO).win 5).cut (grid0.coords t) ((dats m hO 0 c).after 5 t) = _
  rw [after0_5]
  refine funext fun (y : S128x1024.Idx) => ?_
  obtain ⟨p, q, rfl⟩ : ∃ (p : Fin 128) (q : Fin 1024), y = ix2 p q := ⟨y 0, y 1, eq_ix2 y⟩
  show outsAt0 m hO c t (ix2 p q) = _
  rw [outs_eq]
  exact block_value (adm m hO) (tbl m) rfl t (arr0 m c) (arr1 m c) (arr2 m c) (arr3 m c) (arr4 m c) p q

set_option maxHeartbeats 200000 in
theorem final (hO : Gen.Ok m) (c : Dev nD) :
    (dats m hO 0 c).arrAt 5 (cfgM m hO).N = G (arr0 m c) (arr1 m c) (arr2 m c) (arr3 m c) (arr4 m c) (tbl m) :=
  (dats m hO 0 c).arrAt_eq_of_cover 5 (G (arr0 m c) (arr1 m c) (arr2 m c) (arr3 m c) (arr4 m c) (tbl m))
    (fun t _ => flushed_eq m hO c t) (fun i => cover (adm m hO) i)

set_option maxHeartbeats 200000 in
/-- After the region, padded row `i` holds the perceptron of its tile's table segment on the gathered row `i`. -/
theorem region_value (hO : Gen.Ok m) (c : Dev nD) (i : Fin 6144) (j : Fin 1024) :
    (Gen.dats m hO 0 c).arrAt 5 (Gen.cfgM m hO).N (ix2 i j)
      = Cert.Tile.out (Gen.V m c main_v49) (Gen.V m c main_v50) (Gen.V m c main_v51) (Gen.V m c main_v52) (Gen.V m c main_v53)
          ⟨(Gen.tbl m 0 (ix1 ⟨i.val / 128, by omega⟩)).toNat % 16, Nat.mod_lt _ (by decide)⟩ i j :=
  (congrFun (final m hO c) (ix2 i j)).trans
    (G_apply (arr0 m c) (arr1 m c) (arr2 m c) (arr3 m c) (arr4 m c) (tbl m) i j)

end Value

end Cert.KernelIdeal.Region

end
-- ==== Proof.Routing.lean ====
import Idealize.ShloMosaic.Lib.ValueIdx

open scoped BigOperators

namespace Cert.Route

variable (key : Fin 4096 → ℕ)

/-- Tokens are sorted by key, each key's run padded to whole tiles of 128 rows: counts, run starts, tiles, first padded rows, and for a padded row `i` its segment, offset, validity and sorted position. -/
def cnt (s : ℕ) : ℕ := (Finset.univ.filter fun n : Fin 4096 => key n = s).card

def incl (s : ℕ) : ℕ := ∑ r ∈ Finset.range (s + 1), cnt key r

def start (s : ℕ) : ℕ := incl key s - cnt key s

def tiles (s : ℕ) : ℕ := (cnt key s + 127) / 128

def tincl (s : ℕ) : ℕ := ∑ r ∈ Finset.range (s + 1), tiles key r

def pts (s : ℕ) : ℕ := (tincl key s - tiles key s) * 128

def nge (i : ℕ) : ℕ := ((Finset.range 16).filter fun s => pts key s ≤ i).card

def segOf (i : ℕ) : ℕ := min 15 (nge key i - 1)

def loc (i : ℕ) : ℕ := i - pts key (segOf key i)

def valid (i : ℕ) : Prop := loc key i < cnt key (segOf key i)

def row (i : ℕ) : ℕ := min 4095 (start key (segOf key i) + loc key i)

theorem mem_iff_lt_card_of_lower (S : Finset ℕ) (hS : ∀ a ∈ S, ∀ b, b ≤ a → b ∈ S) (a : ℕ) :
    a ∈ S ↔ a < S.card := by
  constructor
  · intro ha
    have hsub : Finset.range (a + 1) ⊆ S := by
      intro b hb
      exact hS a ha b (Nat.lt_succ_iff.mp (Finset.mem_range.mp hb))
    have hc := Finset.card_le_card hsub
    rw [Finset.card_range] at hc
    omega
  · intro ha
    by_contra hna
    have hsub : S ⊆ Finset.range a := by
      intro b hb
      rw [Finset.mem_range]
      by_contra hba
      exact hna (hS b hb a (by omega))
    have hc := Finset.card_le_card hsub
    rw [Finset.card_range] at hc
    omega

theorem fin_mem_iff_lt_card_of_lower {N : ℕ} (S : Finset (Fin N)) (hS : ∀ a ∈ S, ∀ b, b ≤ a → b ∈ S)
    (a : Fin N) : a ∈ S ↔ a.val < S.card := by
  have hS' : ∀ x ∈ S.map Fin.valEmbedding, ∀ b, b ≤ x → b ∈ S.map Fin.valEmbedding := by
    intro x hx b hb
    obtain ⟨q, hq, rfl⟩ := Finset.mem_map.mp hx
    have hbq : b ≤ q.val := hb
    have hbN : b < N := lt_of_le_of_lt hbq q.isLt
    exact Finset.mem_map.mpr ⟨⟨b, hbN⟩, hS q hq ⟨b, hbN⟩ hbq, rfl⟩
  have h := mem_iff_lt_card_of_lower (S.map Fin.valEmbedding) hS' a.val
  rw [Finset.card_map] at h
  rw [← h]
  constructor
  · intro ha
    exact Finset.mem_map.mpr ⟨a, ha, rfl⟩
  · intro ha
    obtain ⟨q, hq, hqa⟩ := Finset.mem_map.mp ha
    have hqa' : q = a := Fin.ext hqa
    rwa [← hqa']

theorem sum_cnt_range (m : ℕ) :
    ∑ r ∈ Finset.range m, cnt key r = (Finset.univ.filter fun n : Fin 4096 => key n < m).card := by
  induction m with
  | zero => simp
  | succ m ih =>
    rw [Finset.sum_range_succ, ih]
    unfold cnt
    rw [← Finset.card_union_of_disjoint]
    · congr 1
      ext n
      simp only [Finset.mem_union, Finset.mem_filter, Finset.mem_univ, true_and]
      omega
    · rw [Finset.disjoint_filter]
      intro n _ h1 h2
      omega

theorem incl_eq (s : ℕ) : incl key s = start key s + cnt key s := by
  have h : cnt key s ≤ incl key s := by
    unfold incl
    exact Finset.single_le_sum (f := fun r => cnt key r) (fun _ _ => Nat.zero_le _)
      (Finset.self_mem_range_succ s)
  unfold start
  omega

theorem start_eq (s : ℕ) : start key s = ∑ r ∈ Finset.range s, cnt key r := by
  unfold start incl
  rw [Finset.sum_range_succ]
  omega

theorem pts_eq (s : ℕ) : pts key s = 128 * ∑ r ∈ Finset.range s, tiles key r := by
  unfold pts tincl
  rw [Finset.sum_range_succ, Nat.add_sub_cancel, Nat.mul_comm]

theorem pts_succ (s : ℕ) : pts key (s + 1) = pts key s + 128 * tiles key s := by
  rw [pts_eq, pts_eq, Finset.sum_range_succ, Nat.mul_add]

theorem pts_succ_eq_tincl (s : ℕ) : pts key (s + 1) = 128 * tincl key s := by
  rw [pts_eq]
  rfl

theorem pts_mono {s t : ℕ} (h : s ≤ t) : pts key s ≤ pts key t :=
  monotone_nat_of_le_succ (f := pts key) (fun n => by rw [pts_succ]; omega) h

theorem cnt_le_tiles (s : ℕ) : cnt key s ≤ 128 * tiles key s := by
  unfold tiles
  omega

theorem tincl_mul_le (s : ℕ) : 128 * tincl key s ≤ incl key s + 127 * (s + 1) := by
  unfold tincl incl
  rw [Finset.mul_sum]
  calc ∑ r ∈ Finset.range (s + 1), 128 * tiles key r
      ≤ ∑ r ∈ Finset.range (s + 1), (cnt key r + 127) := by
        apply Finset.sum_le_sum
        intro r _
        unfold tiles
        omega
    _ = ∑ r ∈ Finset.range (s + 1), cnt key r + 127 * (s + 1) := by
        rw [Finset.sum_add_distrib, Finset.sum_const, Finset.card_range, smul_eq_mul]
        omega

theorem mem_nge_iff (i s : ℕ) : (s < 16 ∧ pts key s ≤ i) ↔ s < nge key i := by
  have hlow : ∀ a ∈ (Finset.range 16).filter (fun s => pts key s ≤ i), ∀ b, b ≤ a →
      b ∈ (Finset.range 16).filter (fun s => pts key s ≤ i) := by
    intro a ha b hb
    rw [Finset.mem_filter, Finset.mem_range] at ha ⊢
    exact ⟨by omega, le_trans (pts_mono key hb) ha.2⟩
  have h := mem_iff_lt_card_of_lower _ hlow s
  rw [Finset.mem_filter, Finset.mem_range] at h
  exact h

theorem cnt_le (s : ℕ) : cnt key s ≤ 4096 := by
  unfold cnt
  calc _ ≤ (Finset.univ : Finset (Fin 4096)).card := Finset.card_filter_le _ _
    _ = 4096 := by simp
theorem incl_le (s : ℕ) : incl key s ≤ 4096 := by
  unfold incl
  rw [sum_cnt_range]
  calc _ ≤ (Finset.univ : Finset (Fin 4096)).card := Finset.card_filter_le _ _
    _ = 4096 := by simp
theorem cnt_le_incl (s : ℕ) : cnt key s ≤ incl key s := by
  have := incl_eq key s
  omega
theorem tiles_le (s : ℕ) : tiles key s ≤ 32 := by
  have := cnt_le key s
  unfold tiles
  omega
theorem tincl_le (s : ℕ) (hs : s < 16) : tincl key s ≤ 48 := by
  have h1 := tincl_mul_le key s
  have h2 := incl_le key s
  omega
theorem tiles_le_tincl (s : ℕ) : tiles key s ≤ tincl key s := by
  unfold tincl
  exact Finset.single_le_sum (f := fun r => tiles key r) (fun _ _ => Nat.zero_le _)
    (Finset.self_mem_range_succ s)
theorem pts_le (s : ℕ) (hs : s < 16) : pts key s ≤ 6144 := by
  have := tincl_le key s hs
  unfold pts
  omega
theorem pts_zero : pts key 0 = 0 := by
  rw [pts_eq]
  simp
theorem nge_le (i : ℕ) : nge key i ≤ 16 := by
  unfold nge
  calc _ ≤ (Finset.range 16).card := Finset.card_filter_le _ _
    _ = 16 := Finset.card_range 16
theorem nge_pos (i : ℕ) : 1 ≤ nge key i :=
  (mem_nge_iff key i 0).mp ⟨by omega, by rw [pts_zero]; omega⟩
theorem segOf_lt (i : ℕ) : segOf key i < 16 := by
  unfold segOf
  omega
theorem pts_segOf_le (i : ℕ) : pts key (segOf key i) ≤ i := by
  have h1 := nge_pos key i
  have h2 := nge_le key i
  have h3 : segOf key i = nge key i - 1 := by
    unfold segOf
    omega
  rw [h3]
  exact ((mem_nge_iff key i _).mpr (by omega)).2
theorem row_lt (i : ℕ) : row key i < 4096 := by
  unfold row
  omega

theorem segOf_tile (i : ℕ) : segOf key (128 * (i / 128)) = segOf key i := by
  have h : nge key (128 * (i / 128)) = nge key i := by
    unfold nge
    congr 1
    apply Finset.filter_congr
    intro s _
    rw [pts_eq]
    omega
  unfold segOf
  rw [h]

theorem key_lt_iff {σ : Fin 4096 → Fin 4096} (hσ : Function.Bijective σ)
    (hs : ∀ p q : Fin 4096, p ≤ q → key (σ p) ≤ key (σ q)) (p : Fin 4096) (m : ℕ) :
    key (σ p) < m ↔ p.val < ∑ r ∈ Finset.range m, cnt key r := by
  have hcard : (Finset.univ.filter fun q : Fin 4096 => key (σ q) < m).card
      = ∑ r ∈ Finset.range m, cnt key r := by
    rw [sum_cnt_range]
    exact Finset.card_bijective σ hσ (fun q => by simp)
  have hlow : ∀ a ∈ (Finset.univ.filter fun q : Fin 4096 => key (σ q) < m), ∀ b, b ≤ a →
      b ∈ (Finset.univ.filter fun q : Fin 4096 => key (σ q) < m) := by
    intro a ha b hb
    rw [Finset.mem_filter] at ha ⊢
    exact ⟨Finset.mem_univ _, lt_of_le_of_lt (hs b a hb) ha.2⟩
  have h := fin_mem_iff_lt_card_of_lower _ hlow p
  rw [hcard, Finset.mem_filter] at h
  rw [← h]
  simp

/-- Every token is read by some valid padded row: its sorted position falls in its key's run, before the padding. -/
theorem exists_row {σ : Fin 4096 → Fin 4096} (hσ : Function.Bijective σ) (hkey : ∀ n, key n < 16)
    (hs : ∀ p q : Fin 4096, p ≤ q → key (σ p) ≤ key (σ q)) (n : Fin 4096) :
    ∃ i, i < 6144 ∧ valid key i ∧ σ ⟨row key i, row_lt key i⟩ = n := by
  obtain ⟨p, rfl⟩ := hσ.surjective n
  obtain ⟨s, hsdef⟩ : ∃ s, s = key (σ p) := ⟨_, rfl⟩
  have hs16 : s < 16 := hsdef ▸ hkey _

  have h1 : start key s ≤ p.val := by
    have h := key_lt_iff key hσ hs p s
    rw [← start_eq] at h
    by_contra hc
    have := h.mpr (by omega)
    omega
  have h2 : p.val < incl key s := by
    have h := (key_lt_iff key hσ hs p (s + 1)).mp (by omega)
    exact h
  have h3 := incl_eq key s
  have h4 := pts_succ key s
  have h5 := cnt_le_tiles key s
  have h6 := pts_succ_eq_tincl key s
  have h7 := tincl_le key s hs16
  obtain ⟨i, hi⟩ : ∃ i, i = pts key s + (p.val - start key s) := ⟨_, rfl⟩
  have hnge : nge key i = s + 1 := by
    have ha : s < nge key i := (mem_nge_iff key i s).mp ⟨hs16, by omega⟩
    have hb : ¬ s + 1 < nge key i := by
      intro hlt
      have := ((mem_nge_iff key i (s + 1)).mpr hlt).2
      omega
    omega
  have hseg : segOf key i = s := by
    unfold segOf
    omega
  have hloc : loc key i = p.val - start key s := by
    unfold loc
    rw [hseg]
    omega
  have hrow : row key i = p.val := by
    unfold row
    rw [hseg, hloc]
    have := p.isLt
    omega
  refine ⟨i, by omega, ?_, ?_⟩
  · unfold valid
    rw [hloc, hseg]
    omega
  · have hp : (⟨row key i, row_lt key i⟩ : Fin 4096) = p := Fin.ext hrow
    rw [hp]

/-- A valid padded row reads a token whose key is the row's segment: runs of equal keys are contiguous in sorted order. -/
theorem key_of_valid {σ : Fin 4096 → Fin 4096} (hσ : Function.Bijective σ) (hkey : ∀ n, key n < 16)
    (hs : ∀ p q : Fin 4096, p ≤ q → key (σ p) ≤ key (σ q)) (i : ℕ) (hv : valid key i) :
    key (σ ⟨row key i, row_lt key i⟩) = segOf key i := by
  have hv' : loc key i < cnt key (segOf key i) := hv
  have h3 := incl_eq key (segOf key i)
  have h4 := incl_le key (segOf key i)
  have hrow : row key i = start key (segOf key i) + loc key i := by
    unfold row
    omega

  have hlt : key (σ ⟨row key i, row_lt key i⟩) < segOf key i + 1 := by
    apply (key_lt_iff key hσ hs ⟨row key i, row_lt key i⟩ (segOf key i + 1)).mpr
    show row key i < incl key (segOf key i)
    omega
  have hge : ¬ key (σ ⟨row key i, row_lt key i⟩) < segOf key i := by
    intro hc
    have h := (key_lt_iff key hσ hs ⟨row key i, row_lt key i⟩ (segOf key i)).mp hc
    rw [← start_eq] at h
    have h' : row key i < start key (segOf key i) := h
    omega
  omega

end Cert.Route
-- ==== Proof.Sort.lean ====
import proofs.«428696_j3496103379639_3_alg».proof.Proof.HostFns
import Idealize.ShloMosaic.Lib.SortFacts
import Idealize.ShloMosaic.Lib.ValueIdx
import Idealize.ShloMosaic.Lib.StableHlo.Predicate

noncomputable section

namespace Cert.KernelIdeal

open Idealize.ShloMosaic Idealize.ShloMosaic.TcCoe Idealize.SL.Sem Idealize.ShloMosaic.ValueIdx

variable [Facts]
open Facts₀ Facts

def keyOf (a1 : IVec S4096 32) : Fin 4096 → ℕ := fun n => (a1 (ix1 n)).toNat

/-- The token at sorted position `p`. -/
def sigma (a1 : IVec S4096 32) : Fin 4096 → Fin 4096 :=
  sortedFrom (fun k k' => comparator_i32_i32_d0 (a1 (ix1 k), BitVec.ofNat 32 k.val) (a1 (ix1 k'), BitVec.ofNat 32 k'.val) == 1#1)

theorem sigma_bijective (a1 : IVec S4096 32) : Function.Bijective (sigma a1) := by
  unfold sigma
  exact ⟨sortedFrom_injective _, sortedFrom_surjective _⟩

theorem sort2_snd_ix1 {n : ℕ} {α β : Type} (cmp : α × β → α × β → BitVec 1)
    (x : (⟨1, ![n]⟩ : Shape).Idx → α) (y : (⟨1, ![n]⟩ : Shape).Idx → β) (p : Fin n) :
    (Host.sort2 (⟨1, ![n]⟩ : Shape) 0 cmp x y).2 (ix1 p)
      = y (ix1 (sortedFrom (fun k k' : Fin n => cmp (x (ix1 k), y (ix1 k)) (x (ix1 k'), y (ix1 k')) == 1#1) p)) := by
  have hd : (0 : ℕ) < (⟨1, ![n]⟩ : Shape).rank := Nat.one_pos
  have hal : ∀ k : Fin n, Shape.Idx.along (s := (⟨1, ![n]⟩ : Shape)) (ix1 p) ⟨0, hd⟩ k = ix1 k := by
    intro k
    funext d
    match d with
    | ⟨0, _⟩ => exact Function.update_self _ _ _
  unfold Host.sort2
  rw [dif_pos hd]
  show y (Shape.Idx.along (s := (⟨1, ![n]⟩ : Shape)) (ix1 p) ⟨0, hd⟩ (sortedFrom (fun k k' : Fin n =>
      cmp (x (Shape.Idx.along (s := (⟨1, ![n]⟩ : Shape)) (ix1 p) ⟨0, hd⟩ k), y (Shape.Idx.along (s := (⟨1, ![n]⟩ : Shape)) (ix1 p) ⟨0, hd⟩ k))
        (x (Shape.Idx.along (s := (⟨1, ![n]⟩ : Shape)) (ix1 p) ⟨0, hd⟩ k'), y (Shape.Idx.along (s := (⟨1, ![n]⟩ : Shape)) (ix1 p) ⟨0, hd⟩ k')) == 1#1) p)) = _
  simp only [hal]
  exact congrArg y (hal _)

theorem sortIdx_apply (a1 : IVec S4096 32) (p : Fin 4096) :
    w_main_v0 a1 (ix1 p) = BitVec.ofNat 32 (sigma a1 p).val := by
  have hiota : ∀ k : Fin 4096, iotaInDim S4096 32 0 (ix1 k) = BitVec.ofNat 32 k.val := fun _ => rfl
  unfold w_main_v0 w_main_call0_v0 sigma
  show (Host.sort2 (⟨1, ![4096]⟩ : Shape) 0 comparator_i32_i32_d0 a1 (iotaInDim S4096 32 0)).2 (ix1 p) = _
  rw [sort2_snd_ix1]
  simp only [hiota]

theorem before_iff (a1 : IVec S4096 32) (h : ∀ n : Fin 4096, (a1 (ix1 n)).toNat < 16) (a b : Fin 4096) :
    (comparator_i32_i32_d0 (a1 (ix1 a), BitVec.ofNat 32 a.val) (a1 (ix1 b), BitVec.ofNat 32 b.val) == 1#1) = true
      ↔ (a1 (ix1 a)).toNat < (a1 (ix1 b)).toNat := by
  rw [beq_iff_eq]
  show IntOp.cmpi .slt (a1 (ix1 a)) (a1 (ix1 b)) = 1#1 ↔ _
  exact StableHlo.Predicate.slt_iff_toNat (by have := h a; omega) (by have := h b; omega)

/-- Keys do not decrease along sorted positions. -/
theorem sigma_sorted (a1 : IVec S4096 32) (h : ∀ n : Fin 4096, (a1 (ix1 n)).toNat < 16) (p q : Fin 4096) (hpq : p ≤ q) :
    keyOf a1 (sigma a1 p) ≤ keyOf a1 (sigma a1 q) := by
  rcases Nat.lt_or_ge p.val q.val with hlt | hge
  ·
    have hno := sortedFrom_noInversion
      (fun k k' : Fin 4096 => comparator_i32_i32_d0 (a1 (ix1 k), BitVec.ofNat 32 k.val) (a1 (ix1 k'), BitVec.ofNat 32 k'.val) == 1#1)
      (fun k k' : Fin 4096 => comparator_i32_i32_d0 (a1 (ix1 k), BitVec.ofNat 32 k.val) (a1 (ix1 k'), BitVec.ofNat 32 k'.val) == 1#1)
      (fun a b hab => by
        have h1 := (before_iff a1 h a b).mp hab
        cases hc : (comparator_i32_i32_d0 (a1 (ix1 b), BitVec.ofNat 32 b.val) (a1 (ix1 a), BitVec.ofNat 32 a.val) == 1#1)
        · rfl
        · have h2 := (before_iff a1 h b a).mp hc
          omega)
      (fun a b hab => hab)
      (fun a b c hab hbc => by
        cases hc : (comparator_i32_i32_d0 (a1 (ix1 a), BitVec.ofNat 32 a.val) (a1 (ix1 c), BitVec.ofNat 32 c.val) == 1#1)
        · rfl
        · have h3 := (before_iff a1 h a c).mp hc
          have h1 : ¬ (a1 (ix1 a)).toNat < (a1 (ix1 b)).toNat := fun hlt' => by
            have := (before_iff a1 h a b).mpr hlt'
            rw [hab] at this
            exact Bool.false_ne_true this
          have h2 : ¬ (a1 (ix1 b)).toNat < (a1 (ix1 c)).toNat := fun hlt' => by
            have := (before_iff a1 h b c).mpr hlt'
            rw [hbc] at this
            exact Bool.false_ne_true this
          omega)
      p q (Fin.lt_def.mpr hlt)
    have hnot : ¬ (a1 (ix1 (sigma a1 q))).toNat < (a1 (ix1 (sigma a1 p))).toNat := fun hlt' => by
      have := (before_iff a1 h (sigma a1 q) (sigma a1 p)).mpr hlt'
      unfold sigma at this
      rw [hno] at this
      exact Bool.false_ne_true this
    unfold keyOf
    omega
  · have hpq' : p = q := Fin.ext (Nat.le_antisymm (Fin.le_def.mp hpq) hge)
    rw [hpq']

attribute [irreducible] sigma

end Cert.KernelIdeal

end
-- ==== Proof.WordLemmas.lean ====
import proofs.«428696_j3496103379639_3_alg».proof.Proof.HostFns
import Idealize.ShloMosaic.Lib.StableHlo.Predicate
import Idealize.ShloMosaic.Lib.ValueIdx

noncomputable section

namespace Cert.KernelIdeal

open Idealize.ShloMosaic Idealize.ShloMosaic.TcCoe Idealize.SL.Sem Idealize.ShloMosaic.ValueIdx

variable [Facts]
open Facts₀ Facts

/-- The printed floor division by 128 is the natural-number quotient on a word below 2³¹. -/
theorem floordiv128 (a1 : IVec S4096 32) (s : Fin 16)
    (h : 0 < (w_main_v12 a1 (ix1 s)).toNat ∧ (w_main_v12 a1 (ix1 s)).toNat < 2 ^ 31) :
    (w_main_v13 a1 (ix1 s)).toNat = (w_main_v12 a1 (ix1 s)).toNat / 128 := by
  obtain ⟨hpos, hlt⟩ := h
  have hne0 : ¬ w_main_v12 a1 (ix1 s) = 0 := by
    intro h0
    rw [h0] at hpos
    exact absurd hpos (by decide)
  have hmsb : (w_main_v12 a1 (ix1 s)).msb = false := BitVec.msb_eq_false_iff_two_mul_lt.mpr (by omega)

  have hsign : w_main_call2_v3 a1 (ix1 s) = 1#32 := by
    show (if w_main_v12 a1 (ix1 s) = 0 then 0 else if (w_main_v12 a1 (ix1 s)).msb then -1 else 1) = 1#32
    rw [if_neg hne0, hmsb]
    rfl
  have hsign128 : w_main_call2_v5 (ix1 s) = 1#32 := by
    show (if (128#32 : BitVec 32) = 0 then 0 else if (128#32 : BitVec 32).msb then -1 else 1) = 1#32
    decide

  have hc6 : w_main_call2_v6 a1 (ix1 s) = 0#1 := by
    show IntOp.cmpi .ne (w_main_call2_v3 a1 (ix1 s)) (w_main_call2_v5 (ix1 s)) = 0#1
    rw [hsign, hsign128]
    decide
  have hc11 : w_main_call2_v11 a1 (ix1 s) = 0#1 := by
    show IntOp.andi (w_main_call2_v6 a1 (ix1 s)) (w_main_call2_v10 a1 (ix1 s)) = 0#1
    rw [hc6]
    unfold IntOp.andi
    exact BitVec.zero_and
  have hv13 : w_main_v13 a1 (ix1 s) = w_main_call2_v2 a1 (ix1 s) := by
    show Scalar.select (w_main_call2_v11 a1 (ix1 s)) (w_main_call2_v13 a1 (ix1 s)) (w_main_call2_v2 a1 (ix1 s)) = _
    rw [hc11, select_zero]
  have hv2 : w_main_call2_v2 a1 (ix1 s) = IntOp.divsi .host (w_main_v12 a1 (ix1 s)) 128#32 := rfl
  rw [hv13, hv2]

  have hcorner : ¬ IntOp.SDivCorner (w_main_v12 a1 (ix1 s)) 128#32 := by
    intro hc
    rcases hc with hc | ⟨_, hc⟩ <;> exact absurd hc (by decide)
  simp only [IntOp.divsi, if_neg hcorner, BitVec.sdiv_eq, hmsb, show (128#32 : BitVec 32).msb = false from by decide,
    BitVec.udiv_eq, BitVec.toNat_udiv, BitVec.toNat_ofNat]

end Cert.KernelIdeal

end
-- ==== Proof.Counts.lean ====
import proofs.«428696_j3496103379639_3_alg».proof.Proof.HostFns
import proofs.«428696_j3496103379639_3_alg».proof.Proof.Routing
import proofs.«428696_j3496103379639_3_alg».proof.Proof.Sort
import proofs.«428696_j3496103379639_3_alg».proof.Proof.WordLemmas
import Idealize.ShloMosaic.Lib.StableHlo.Predicate
import Idealize.ShloMosaic.Lib.ValueIdx

noncomputable section

namespace Cert.KernelIdeal

open Idealize.ShloMosaic Idealize.ShloMosaic.TcCoe Idealize.SL.Sem Idealize.ShloMosaic.ValueIdx

variable [Facts]
open Facts₀ Facts

private theorem rowMajor_symm_one (sz : Fin 1 → Nat) (m : Fin (Shape.numel ⟨1, sz⟩)) :
    ((Shape.rowMajor ⟨1, sz⟩).symm m 0).val = m.val := by
  conv_rhs => rw [← (Shape.rowMajor ⟨1, sz⟩).apply_symm_apply m]
  generalize (Shape.rowMajor ⟨1, sz⟩).symm m = c
  show (c 0).val = (Shape.rowMajorPi sz c).val
  rw [Shape.rowMajorPi_succ_val]
  have h0 := ((Shape.rowMajorPi fun a : Fin 0 => sz a.succ) fun a => c a.succ).isLt
  simp only [Finset.univ_eq_empty, Finset.prod_empty] at h0 ⊢
  omega

private theorem foldl_addi_toNat {ι : Type} (l : List ι) (g : ι → BitVec 32) (v : BitVec 32) :
    (l.foldl (fun r n => IntOp.addi r (g n)) v).toNat
      = (v.toNat + (l.map fun n => (g n).toNat).sum) % 2 ^ 32 := by
  induction l generalizing v with
  | nil => simp [Nat.mod_eq_of_lt v.isLt]
  | cons a l ih =>
    rw [List.foldl_cons, ih, List.map_cons, List.sum_cons]
    show ((v + g a).toNat + _) % _ = _
    rw [BitVec.toNat_add]
    omega

private theorem window_sum (f : ℕ → ℕ) (j : ℕ) (hj : j < 16) :
    ∑ m ∈ Finset.range 16, (if 15 ≤ j + m then f (j + m - 15) else 0) = ∑ k ∈ Finset.range (j + 1), f k := by
  have h16 : 16 = (15 - j) + (j + 1) := by omega
  rw [h16, Finset.sum_range_add]
  rw [Finset.sum_eq_zero (fun m hm => by
    rw [Finset.mem_range] at hm
    rw [if_neg (by omega)]), Nat.zero_add]
  refine Finset.sum_congr rfl (fun k hk => ?_)
  rw [Finset.mem_range] at hk
  rw [if_pos (by omega)]
  congr 1
  omega

private theorem sum_map_finRange_eq {N : ℕ} (hN : N = 16) (h : Fin N → ℕ) (F : ℕ → ℕ) (hF : ∀ n, h n = F n.val) :
    ((List.finRange N).map h).sum = ∑ m ∈ Finset.range 16, F m := by
  subst hN
  rw [← Fin.sum_univ_def, ← Fin.sum_univ_eq_sum_range]
  exact Finset.sum_congr rfl (fun n _ => hF n)

/-- A running sum of sixteen words is the running sum of their values when no partial sum wraps. -/
theorem cumsum16 (x : IVec S16 32) (f : ℕ → ℕ) (hx : ∀ k : Fin 16, (x (ix1 k)).toNat = f k.val)
    (v : IVec S_ 32) (hv : v (Shape.Idx.first h_S_) = 0#32) (j : Fin 16)
    (hsum : ∑ k ∈ Finset.range (j.val + 1), f k < 2 ^ 32) :
    (Host.reduceWindow IntOp.addi ![16] ![1] ![15] ![0] x v reduceWindows_S16_S16_w16s1p15_0 h_S_ (ix1 j)).toNat
      = ∑ k ∈ Finset.range (j.val + 1), f k := by
  unfold Host.reduceWindow
  simp only []
  rw [hv, foldl_addi_toNat]
  have hN : Shape.numel ⟨1, ![16]⟩ = 16 := by decide
  rw [sum_map_finRange_eq hN _ (fun m => if 15 ≤ j.val + m then f (j.val + m - 15) else 0)]
  · rw [window_sum f j.val j.isLt]
    simp only [BitVec.toNat_ofNat, Nat.zero_mod, Nat.zero_add]
    exact Nat.mod_eq_of_lt hsum
  · intro n
    have hn := rowMajor_symm_one ![16] n
    have hnlt : n.val < 16 := by have := n.isLt; omega
    have hjlt := j.isLt
    split <;> rename_i hc
    · have h0 : 15 ≤ j.val * 1 + ((Shape.rowMajor ⟨1, ![16]⟩).symm n 0).val
          ∧ j.val * 1 + ((Shape.rowMajor ⟨1, ![16]⟩).symm n 0).val - 15 < 16 := hc 0
      rw [hn] at h0
      rw [if_pos (by omega), ← hx ⟨j.val + n.val - 15, by omega⟩]
      refine congrArg (fun i => (x i).toNat) ?_
      funext a
      have ha : a = 0 := Subsingleton.elim _ _
      subst ha
      apply Fin.ext
      show j.val * 1 + ((Shape.rowMajor ⟨1, ![16]⟩).symm n 0).val - 15 = j.val + n.val - 15
      rw [hn]; omega
    · have h15 : ¬ 15 ≤ j.val + n.val := by
        intro h15
        apply hc
        intro a
        have ha : a = 0 := Subsingleton.elim _ _
        subst ha
        show 15 ≤ j.val * 1 + ((Shape.rowMajor ⟨1, ![16]⟩).symm n 0).val
          ∧ j.val * 1 + ((Shape.rowMajor ⟨1, ![16]⟩).symm n 0).val - 15 < 16
        rw [hn]; omega
      rw [if_neg h15]; rfl

/-- The count word of segment `s` is the number of tokens labelled `s`. -/
theorem counts_toNat (a1 : IVec S4096 32) (s : Fin 16) :
    (w_main_v8 a1 (ix1 s)).toNat = Route.cnt (keyOf a1) s.val := by
  unfold w_main_v8 w_main_v7 w_main_c
  show (Host.reduce IntOp.addi (extui 32 (w_main_v6 a1) natLt_1_32) (constantI S_ 32 0#32)
    reducesTo_S16x4096_S16_d1 h_S_ (ix1 s)).toNat = _
  rw [StableHlo.Predicate.toNat_reduce_count_cols (by norm_num) (w_main_v6 a1) natLt_1_32
    reducesTo_S16x4096_S16_d1 h_S_ (ix1 s)]
  unfold Route.cnt
  refine congrArg Finset.card (Finset.filter_congr ?_)
  intro q _
  show IntOp.cmpi .eq (w_main_v4 a1 (StableHlo.Predicate.ij s q)) (w_main_v5 (StableHlo.Predicate.ij s q)) = 1#1
    ↔ keyOf a1 q = s.val
  rw [StableHlo.Predicate.cmpi_eq_iff]
  have hof : ∀ {n : ℕ} (k : Fin n), Shape.Idx.ofFin k = ix1 k := by
    intro n k; funext d; match d with | ⟨0, _⟩ => rfl
  have h4 : w_main_v4 a1 (StableHlo.Predicate.ij s q) = a1 (ix1 q) := by
    unfold w_main_v4 w_main_v2
    rw [StableHlo.Predicate.bcast_cols bcast_S4096_S1x4096_1 bcast_S1x4096_S16x4096_0_1 a1 s q, hof]
  have h5 : w_main_v5 (StableHlo.Predicate.ij s q) = BitVec.ofNat 32 s.val := by
    unfold w_main_v5 w_main_v3 w_main_v1
    rw [StableHlo.Predicate.bcast_rows bcast_S16_S16x1_0 bcast_S16x1_S16x4096_0_1 _ s q]
    exact StableHlo.Predicate.iota_apply s
  rw [h4, h5]
  unfold keyOf
  have hs := s.isLt
  constructor
  · intro h
    rw [h, BitVec.toNat_ofNat]
    exact Nat.mod_eq_of_lt (by omega)
  · intro h
    apply BitVec.eq_of_toNat_eq
    rw [h, BitVec.toNat_ofNat]
    exact (Nat.mod_eq_of_lt (by omega)).symm

theorem incl_toNat (a1 : IVec S4096 32) (s : Fin 16) :
    (w_main_v9 a1 (ix1 s)).toNat = Route.incl (keyOf a1) s.val := by
  unfold w_main_v9
  exact cumsum16 (w_main_v8 a1) (Route.cnt (keyOf a1)) (fun k => counts_toNat a1 k) w_main_call1_call0_v0 rfl s
    (lt_of_le_of_lt (Route.incl_le (keyOf a1) s.val) (by norm_num))

theorem start_toNat (a1 : IVec S4096 32) (s : Fin 16) :
    (w_main_v10 a1 (ix1 s)).toNat = Route.start (keyOf a1) s.val := by
  unfold w_main_v10
  show (w_main_v9 a1 (ix1 s) - w_main_v8 a1 (ix1 s)).toNat = _
  rw [BitVec.toNat_sub, incl_toNat, counts_toNat]
  have h1 := Route.cnt_le_incl (keyOf a1) s.val
  have h2 := Route.incl_le (keyOf a1) s.val
  unfold Route.start
  omega

theorem v12_toNat (a1 : IVec S4096 32) (s : Fin 16) :
    (w_main_v12 a1 (ix1 s)).toNat = Route.cnt (keyOf a1) s.val + 127 := by
  unfold w_main_v12
  show (w_main_v8 a1 (ix1 s) + 127#32).toNat = _
  rw [BitVec.toNat_add, counts_toNat]
  have h1 := Route.cnt_le (keyOf a1) s.val
  simp only [BitVec.toNat_ofNat]
  omega

theorem tiles_toNat (a1 : IVec S4096 32) (s : Fin 16) :
    (w_main_v13 a1 (ix1 s)).toNat = Route.tiles (keyOf a1) s.val := by
  have h1 := Route.cnt_le (keyOf a1) s.val
  rw [floordiv128 a1 s (by rw [v12_toNat]; omega), v12_toNat]
  rfl

theorem tincl_toNat (a1 : IVec S4096 32) (s : Fin 16) :
    (w_main_v14 a1 (ix1 s)).toNat = Route.tincl (keyOf a1) s.val := by
  unfold w_main_v14
  exact cumsum16 (w_main_v13 a1) (Route.tiles (keyOf a1)) (fun k => tiles_toNat a1 k) w_main_call3_call0_v0 rfl s
    (lt_of_le_of_lt (Route.tincl_le (keyOf a1) s.val s.isLt) (by norm_num))

theorem pts_toNat (a1 : IVec S4096 32) (s : Fin 16) :
    (w_main_v17 a1 (ix1 s)).toNat = Route.pts (keyOf a1) s.val := by
  unfold w_main_v17 w_main_v15
  show ((w_main_v14 a1 (ix1 s) - w_main_v13 a1 (ix1 s)) * 128#32).toNat = _
  rw [BitVec.toNat_mul, BitVec.toNat_sub, tincl_toNat, tiles_toNat]
  have h1 := Route.tiles_le_tincl (keyOf a1) s.val
  have h2 := Route.tincl_le (keyOf a1) s.val s.isLt
  unfold Route.pts
  simp only [BitVec.toNat_ofNat]
  omega

end Cert.KernelIdeal

end
-- ==== Proof.Rows.lean ====
import proofs.«428696_j3496103379639_3_alg».proof.Proof.HostFns
import proofs.«428696_j3496103379639_3_alg».proof.Proof.Routing
import proofs.«428696_j3496103379639_3_alg».proof.Proof.Sort
import proofs.«428696_j3496103379639_3_alg».proof.Proof.Counts
import proofs.«428696_j3496103379639_3_alg».proof.Proof.Takes
import Idealize.ShloMosaic.Lib.StableHlo.Predicate
import Idealize.ShloMosaic.Lib.ValueIdx

noncomputable section

namespace Cert.KernelIdeal

open Idealize.ShloMosaic Idealize.ShloMosaic.TcCoe Idealize.SL.Sem Idealize.ShloMosaic.ValueIdx
open Idealize.ShloMosaic.StableHlo.Predicate

theorem ofFin_eq_ix1 {n : Nat} (k : Fin n) : Shape.Idx.ofFin k = ix1 k := by
  funext a
  have ha : a = 0 := Subsingleton.elim _ _
  subst ha
  exact Fin.ext rfl

theorem clip_toNat (hi w : BitVec 32) (hhi : hi.toNat < 2 ^ 31) (hw : w.toNat < 2 ^ 31) :
    (IntOp.minsi hi (IntOp.maxsi 0#32 w)).toNat = min hi.toNat w.toNat := by
  have hti : w.toInt = w.toNat := toInt_eq_toNat_of_lt hw
  have hth : hi.toInt = hi.toNat := toInt_eq_toNat_of_lt hhi
  have h0 : (0#32 : BitVec 32).toInt = 0 := by decide
  have hmax : IntOp.maxsi 0#32 w = w := by
    unfold IntOp.maxsi
    split <;> rename_i hc <;> simp only [BitVec.slt, hti, h0, decide_eq_true_eq] at hc
    · omega
    · rfl
  rw [hmax]
  unfold IntOp.minsi
  split <;> rename_i hc <;> simp only [BitVec.slt, hti, hth, decide_eq_true_eq] at hc
  · omega
  · omega

theorem toNat_ofNat_small (n : ℕ) (hn : n < 2 ^ 32) : (BitVec.ofNat 32 n).toNat = n := by
  rw [BitVec.toNat_ofNat]
  exact Nat.mod_eq_of_lt hn

variable [Facts]
open Facts₀ Facts

theorem v18_apply (i : Fin 6144) : w_main_v18 (ix1 i) = BitVec.ofNat 32 i.val := rfl

theorem v23_iff (a1 : IVec S4096 32) (i : Fin 6144) (q : Fin 16) :
    w_main_v23 a1 (ij i q) = 1#1 ↔ Route.pts (keyOf a1) q.val ≤ i.val := by
  have h21 : w_main_v21 (ij i q) = BitVec.ofNat 32 i.val :=
    (bcast_rows bcast_S6144_S6144x1_0 bcast_S6144x1_S6144x16_0_1 w_main_v18 i q).trans rfl
  have h22 : w_main_v22 a1 (ij i q) = w_main_v17 a1 (ix1 q) := by
    have h := bcast_cols bcast_S16_S1x16_1 bcast_S1x16_S6144x16_0_1 (w_main_v17 a1) i q
    rw [ofFin_eq_ix1] at h
    exact h
  have hp := pts_toNat a1 q
  have hle := Route.pts_le (keyOf a1) q.val q.isLt
  have hi := i.isLt
  show IntOp.cmpi .sge (w_main_v21 (ij i q)) (w_main_v22 a1 (ij i q)) = 1#1 ↔ _
  rw [h21, h22, sge_iff_toNat (by rw [toNat_ofNat_small _ (by omega)]; omega) (by omega), hp,
    toNat_ofNat_small _ (by omega)]

theorem v25_toNat (a1 : IVec S4096 32) (i : Fin 6144) :
    (w_main_v25 a1 (ix1 i)).toNat = Route.nge (keyOf a1) i.val := by
  have hcount := toNat_reduce_count_cols (n := 6144) (m := 16) (by norm_num) (w_main_v23 a1) natLt_1_32
    reducesTo_S6144x16_S6144_d1 h_S_ (ix1 i)
  have hmap : ((Finset.univ.filter (fun q : Fin 16 => w_main_v23 a1 (ij i q) = 1#1)).map Fin.valEmbedding)
      = (Finset.range 16).filter (fun s => Route.pts (keyOf a1) s ≤ i.val) := by
    ext s
    simp only [Finset.mem_map, Finset.mem_filter, Finset.mem_univ, true_and, Finset.mem_range,
      Fin.valEmbedding_apply]
    constructor
    · rintro ⟨q, hq, rfl⟩
      exact ⟨q.isLt, (v23_iff a1 i q).mp hq⟩
    · rintro ⟨hs, hp⟩
      exact ⟨⟨s, hs⟩, (v23_iff a1 i ⟨s, hs⟩).mpr hp, rfl⟩
  unfold Route.nge
  rw [← hmap, Finset.card_map]
  exact hcount

theorem v27_toNat (a1 : IVec S4096 32) (i : Fin 6144) :
    (w_main_v27 a1 (ix1 i)).toNat = Route.nge (keyOf a1) i.val - 1 := by
  have h1 := Route.nge_pos (keyOf a1) i.val
  have h2 := Route.nge_le (keyOf a1) i.val
  have h3 := v25_toNat a1 i
  show (w_main_v25 a1 (ix1 i) - 1#32).toNat = _
  rw [BitVec.toNat_sub]
  simp only [BitVec.toNat_ofNat]
  omega

/-- The segment word of padded row `i` is `segOf i`. -/
theorem segOf_toNat (a1 : IVec S4096 32) (i : Fin 6144) :
    (w_main_v28 a1 (ix1 i)).toNat = Route.segOf (keyOf a1) i.val := by
  have h2 := Route.nge_le (keyOf a1) i.val
  have h3 := v27_toNat a1 i
  show (IntOp.minsi 15#32 (IntOp.maxsi 0#32 (w_main_v27 a1 (ix1 i)))).toNat = _
  rw [clip_toNat _ _ (by decide) (by omega), h3]
  rfl

theorem segOf_word_lt (a1 : IVec S4096 32) (i : Fin 6144) : (w_main_v28 a1 (ix1 i)).toNat < 16 := by
  rw [segOf_toNat]
  exact Route.segOf_lt _ _

theorem pts_toNat_mk (a1 : IVec S4096 32) (s : ℕ) (h : s < 16) :
    (w_main_v17 a1 (ix1 ⟨s, h⟩)).toNat = Route.pts (keyOf a1) s := pts_toNat a1 ⟨s, h⟩

theorem counts_toNat_mk (a1 : IVec S4096 32) (s : ℕ) (h : s < 16) :
    (w_main_v8 a1 (ix1 ⟨s, h⟩)).toNat = Route.cnt (keyOf a1) s := counts_toNat a1 ⟨s, h⟩

theorem start_toNat_mk (a1 : IVec S4096 32) (s : ℕ) (h : s < 16) :
    (w_main_v10 a1 (ix1 ⟨s, h⟩)).toNat = Route.start (keyOf a1) s := start_toNat a1 ⟨s, h⟩

theorem v29_toNat (a1 : IVec S4096 32) (i : Fin 6144) :
    (w_main_v29 a1 (ix1 i)).toNat = Route.pts (keyOf a1) (Route.segOf (keyOf a1) i.val) := by
  have h := segOf_word_lt a1 i
  rw [take_v29 a1 i h, pts_toNat_mk a1 _ h, segOf_toNat]

theorem v31_toNat (a1 : IVec S4096 32) (i : Fin 6144) :
    (w_main_v31 a1 (ix1 i)).toNat = Route.cnt (keyOf a1) (Route.segOf (keyOf a1) i.val) := by
  have h := segOf_word_lt a1 i
  rw [take_v31 a1 i h, counts_toNat_mk a1 _ h, segOf_toNat]

theorem v33_toNat (a1 : IVec S4096 32) (i : Fin 6144) :
    (w_main_v33 a1 (ix1 i)).toNat = Route.start (keyOf a1) (Route.segOf (keyOf a1) i.val) := by
  have h := segOf_word_lt a1 i
  rw [take_v33 a1 i h, start_toNat_mk a1 _ h, segOf_toNat]

theorem loc_toNat (a1 : IVec S4096 32) (i : Fin 6144) :
    (w_main_v30 a1 (ix1 i)).toNat = Route.loc (keyOf a1) i.val := by
  have h1 := v29_toNat a1 i
  have h2 := Route.pts_segOf_le (keyOf a1) i.val
  have hi := i.isLt
  show (BitVec.ofNat 32 i.val - w_main_v29 a1 (ix1 i)).toNat = _
  rw [BitVec.toNat_sub, toNat_ofNat_small _ (by omega), h1]
  unfold Route.loc
  omega

/-- The validity bit of padded row `i` is set exactly when `i` is a valid row. -/
theorem valid_iff (a1 : IVec S4096 32) (i : Fin 6144) :
    w_main_v32 a1 (ix1 i) = 1#1 ↔ Route.valid (keyOf a1) i.val := by
  have h1 := loc_toNat a1 i
  have h2 := v31_toNat a1 i
  have h3 := Route.cnt_le (keyOf a1) (Route.segOf (keyOf a1) i.val)
  have hl : Route.loc (keyOf a1) i.val ≤ i.val := Nat.sub_le _ _
  have hi := i.isLt
  show IntOp.cmpi .slt (w_main_v30 a1 (ix1 i)) (w_main_v31 a1 (ix1 i)) = 1#1 ↔ _
  rw [slt_iff_toNat (by omega) (by omega), h1, h2]
  rfl

/-- The sorted-position word of padded row `i` is `row i`. -/
theorem row_toNat (a1 : IVec S4096 32) (i : Fin 6144) :
    (w_main_v35 a1 (ix1 i)).toNat = Route.row (keyOf a1) i.val := by
  have h1 := loc_toNat a1 i
  have h2 := v33_toNat a1 i
  have h3 := Route.incl_le (keyOf a1) (Route.segOf (keyOf a1) i.val)
  have h4 := Route.incl_eq (keyOf a1) (Route.segOf (keyOf a1) i.val)
  have hl : Route.loc (keyOf a1) i.val ≤ i.val := Nat.sub_le _ _
  have hi := i.isLt
  have h34 : (w_main_v34 a1 (ix1 i)).toNat
      = Route.start (keyOf a1) (Route.segOf (keyOf a1) i.val) + Route.loc (keyOf a1) i.val := by
    show (w_main_v33 a1 (ix1 i) + w_main_v30 a1 (ix1 i)).toNat = _
    rw [BitVec.toNat_add, h1, h2]
    exact Nat.mod_eq_of_lt (by omega)
  show (IntOp.minsi 4095#32 (IntOp.maxsi 0#32 (w_main_v34 a1 (ix1 i)))).toNat = _
  rw [clip_toNat _ _ (by decide) (by omega), h34]
  rfl

end Cert.KernelIdeal

end
-- ==== Proof.Tokens.lean ====
import proofs.«428696_j3496103379639_3_alg».proof.Proof.HostFns
import proofs.«428696_j3496103379639_3_alg».proof.Proof.Routing
import proofs.«428696_j3496103379639_3_alg».proof.Proof.Sort
import proofs.«428696_j3496103379639_3_alg».proof.Proof.Counts
import proofs.«428696_j3496103379639_3_alg».proof.Proof.Rows
import proofs.«428696_j3496103379639_3_alg».proof.Proof.Takes
import Idealize.ShloMosaic.Lib.StableHlo.Predicate
import Idealize.ShloMosaic.Lib.ValueIdx
import Idealize.ShloMosaic.PureOps.Ideal

noncomputable section

namespace Cert.KernelIdeal

open Idealize.ShloMosaic Idealize.ShloMosaic.TcCoe Idealize.SL.Sem Idealize.ShloMosaic.ValueIdx

variable [Facts]
open Facts₀ Facts

/-- The token a padded row reads. -/
def tokenOf (a1 : IVec S4096 32) (i : Fin 6144) : Fin 4096 :=
  sigma a1 ⟨Route.row (keyOf a1) i.val, Route.row_lt _ _⟩

private theorem rank1_ofFin_eq {n : Nat} (p : Fin n) : Shape.Idx.ofFin p = ix1 p := by
  funext d; match d with | ⟨0, _⟩ => rfl

theorem tokenOf_lt (a1 : IVec S4096 32) (i : Fin 6144) : (tokenOf a1 i).val < 4096 := (tokenOf a1 i).isLt

theorem orig_apply (a1 : IVec S4096 32) (i : Fin 6144) :
    w_main_v36 a1 (ix1 i) = BitVec.ofNat 32 (tokenOf a1 i).val := by
  have hr := row_toNat a1 i
  have hlt : (w_main_v35 a1 (ix1 i)).toNat < 4096 := by rw [hr]; exact Route.row_lt _ _
  rw [take_v36 a1 i hlt, sortIdx_apply]
  have hp : (⟨(w_main_v35 a1 (ix1 i)).toNat, hlt⟩ : Fin 4096) = ⟨Route.row (keyOf a1) i.val, Route.row_lt _ _⟩ := Fin.ext hr
  rw [hp]
  rfl

theorem orig_toNat (a1 : IVec S4096 32) (i : Fin 6144) : (w_main_v36 a1 (ix1 i)).toNat = (tokenOf a1 i).val := by
  rw [orig_apply, BitVec.toNat_ofNat]
  exact Nat.mod_eq_of_lt (by have := tokenOf_lt a1 i; omega)

theorem sidx_of_valid (a1 : IVec S4096 32) (i : Fin 6144) (hv : Route.valid (keyOf a1) i.val) :
    w_main_v37 a1 (ix1 i) = BitVec.ofNat 32 (tokenOf a1 i).val := by
  show Scalar.select (w_main_v32 a1 (ix1 i)) (w_main_v36 a1 (ix1 i)) (w_main_call10_v0 (ix1 i)) = _
  rw [(valid_iff a1 i).mpr hv, select_one, orig_apply]

theorem sidx_of_not_valid (a1 : IVec S4096 32) (i : Fin 6144) (hv : ¬ Route.valid (keyOf a1) i.val) :
    w_main_v37 a1 (ix1 i) = 4096#32 := by
  show Scalar.select (w_main_v32 a1 (ix1 i)) (w_main_v36 a1 (ix1 i)) (w_main_call10_v0 (ix1 i)) = _
  rw [eq_zero_of_ne_one (fun h => hv ((valid_iff a1 i).mp h)), select_zero]
  rfl

theorem tileRow_toNat (t : Fin 48) : (w_main_v40 (ix1 t)).toNat = 128 * t.val := by
  show (IntOp.muli (BitVec.ofNat 32 t.val) 128#32).toNat = _
  show (BitVec.ofNat 32 t.val * 128#32).toNat = _
  rw [BitVec.toNat_mul, BitVec.toNat_ofNat, BitVec.toNat_ofNat]
  have := t.isLt
  omega

theorem table_toNat (a1 : IVec S4096 32) (t : Fin 48) :
    (w_main_v41 a1 (ix1 t)).toNat = Route.segOf (keyOf a1) (128 * t.val) := by
  have ht := tileRow_toNat t
  have hlt : (w_main_v40 (ix1 t)).toNat < 6144 := by rw [ht]; have := t.isLt; omega
  rw [take_v41 a1 t hlt, segOf_toNat]
  show Route.segOf (keyOf a1) (w_main_v40 (ix1 t)).toNat = _
  rw [ht]

private theorem gather_rows_apply {α : Type} (x : S4096x1024.Idx → α) (idx : IVec S6144x1 32) (i : Fin 6144) (j : Fin 1024) :
    Host.gather gather_S4096x1024_S6144x1_S6144x1024_1_0_n_n_0_1_11024 x idx (ix2 i j)
      = x (ix2 ⟨min (idx (StableHlo.Predicate.ixP i)).toInt.toNat 4095, by omega⟩ j) := by
  unfold Host.gather
  congr 1
  funext a
  refine Fin.ext ?_
  match a with
  | ⟨0, _⟩ =>
    show gather_S4096x1024_S6144x1_S6144x1024_1_0_n_n_0_1_11024.start (ix2 i j) idx 0
      + gather_S4096x1024_S6144x1_S6144x1024_1_0_n_n_0_1_11024.batchCoord (ix2 i j) 0
      + gather_S4096x1024_S6144x1_S6144x1024_1_0_n_n_0_1_11024.offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x1024_S6144x1_S6144x1024_1_0_n_n_0_1_11024.startIndexMap from List.mem_singleton.mpr rfl)]
    have hsi : gather_S4096x1024_S6144x1_S6144x1024_1_0_n_n_0_1_11024.siIdx (ix2 i j)
        ⟨List.idxOf (0 : Fin 2) gather_S4096x1024_S6144x1_S6144x1024_1_0_n_n_0_1_11024.startIndexMap,
          List.idxOf_lt_length_iff.2 (List.mem_singleton.mpr rfl)⟩ = StableHlo.Predicate.ixP i := by
      funext b; refine Fin.ext ?_
      match b with
      | ⟨0, _⟩ => rfl
      | ⟨1, _⟩ => rfl
    rw [hsi]
    rfl
  | ⟨1, _⟩ =>
    show gather_S4096x1024_S6144x1_S6144x1024_1_0_n_n_0_1_11024.start (ix2 i j) idx 1
      + gather_S4096x1024_S6144x1_S6144x1024_1_0_n_n_0_1_11024.batchCoord (ix2 i j) 1
      + gather_S4096x1024_S6144x1_S6144x1024_1_0_n_n_0_1_11024.offCoord (ix2 i j) 1 = j.val
    rw [GatherDims.batchCoord_eq_zero _ _ _ List.not_mem_nil]
    unfold GatherDims.start
    rw [dif_neg (show (1 : Fin 2) ∉ gather_S4096x1024_S6144x1_S6144x1024_1_0_n_n_0_1_11024.startIndexMap from
      fun (h : (1 : Fin 2) ∈ [0]) => absurd (List.mem_singleton.mp h) (by decide))]
    unfold GatherDims.offCoord
    rw [dif_pos (show (1 : Fin 2) ∈ gather_S4096x1024_S6144x1_S6144x1024_1_0_n_n_0_1_11024.sKept from
      (GatherDims.mem_sKept _ _).mpr ⟨fun (h : (1 : Fin 2) ∈ [0]) => absurd (List.mem_singleton.mp h) (by decide), List.not_mem_nil⟩)]

    have hval : ∀ (l : List (Fin 2)) (k : Nat) (h : k < l.length), l = [1] → (l[k]'h).val = 1 := by
      intro l k h hl; subst hl
      obtain rfl : k = 0 := by simpa using h
      rfl
    have hcol : ∀ e : Fin 2, e.val = 1 → (ix2 i j e).val = j.val := by
      intro e he
      obtain ⟨v, hv⟩ := e
      dsimp only at he
      subst he
      rfl
    simp only [Nat.zero_add]
    exact hcol _ (hval _ _ _ rfl)

theorem wrapped_apply (a1 : IVec S4096 32) (i : Fin 6144) :
    w_main_v46 a1 (ix1 i) = BitVec.ofNat 32 (tokenOf a1 i).val := by
  show Scalar.select (IntOp.cmpi .slt (w_main_v36 a1 (ix1 i)) 0#32) (w_main_v45 a1 (ix1 i)) (w_main_v36 a1 (ix1 i)) = _
  have hlt := tokenOf_lt a1 i
  have hn : ¬ IntOp.cmpi .slt (w_main_v36 a1 (ix1 i)) 0#32 = 1#1 := by
    rw [StableHlo.Predicate.slt_iff_toNat (by rw [orig_toNat]; omega) (by decide)]
    exact Nat.not_lt_zero _
  rw [eq_zero_of_ne_one hn, select_zero, orig_apply]

/-- Padded row `i` of the gathered array is row `tokenOf i` of x. -/
theorem xpad_apply (a0 : FVec Ideal S4096x1024 .f32) (a1 : IVec S4096 32) (i : Fin 6144) (j : Fin 1024) :
    w_main_v49 (F := Ideal) a0 a1 (ix2 i j) = a0 (ix2 (tokenOf a1 i) j) := by
  show Host.gather gather_S4096x1024_S6144x1_S6144x1024_1_0_n_n_0_1_11024 a0 (w_main_v47 a1) (ix2 i j) = _
  rw [gather_rows_apply]
  have hlt := tokenOf_lt a1 i
  have hidx : w_main_v47 a1 (StableHlo.Predicate.ixP i) = BitVec.ofNat 32 (tokenOf a1 i).val := by
    show broadcastInDim S6144x1 ![0] bcast_S6144_S6144x1_0 (w_main_v46 a1) (StableHlo.Predicate.ixP i) = _
    rw [StableHlo.Predicate.bcast_col1, rank1_ofFin_eq, wrapped_apply]
  have hrow : min (w_main_v47 a1 (StableHlo.Predicate.ixP i)).toInt.toNat 4095 = (tokenOf a1 i).val := by
    rw [hidx, StableHlo.Predicate.toInt_ofNat_small _ (by omega), Int.toNat_natCast]
    omega
  have hp : (⟨min (w_main_v47 a1 (StableHlo.Predicate.ixP i)).toInt.toNat 4095, by omega⟩ : Fin 4096) = tokenOf a1 i := Fin.ext hrow
  rw [hp]

end Cert.KernelIdeal

end
-- ==== Proof.LibScatterFold.lean ====
import Idealize.ShloMosaic.PureOps.ShapeOps
import Idealize.ShloMosaic.Lib.ValueIdx

namespace Idealize.ShloMosaic.ScatterFold

open Idealize.ShloMosaic Idealize.ShloMosaic.ValueIdx

theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A scatter that overwrites: if some update lands on an element and all that land there agree, the element ends at that value. -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

section RowScatter

theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.Scatter.lean ====
import proofs.«428696_j3496103379639_3_alg».proof.Proof.HostFns
import Idealize.ShloMosaic.Lib.ValueIdx
import proofs.«428696_j3496103379639_3_alg».proof.Proof.LibScatterFold
import Idealize.ShloMosaic.Lib.IdealHost
import Idealize.ShloMosaic.Lib.StableHlo.Predicate
import Idealize.ShloMosaic.Lib.Pipeline.Value

noncomputable section

namespace Cert.KernelIdeal

open Idealize.ShloMosaic Idealize.ShloMosaic.TcCoe Idealize.SL.Sem Idealize.ShloMosaic.ValueIdx

variable [Facts]
open Facts₀ Facts

theorem v60_eq_v37 (a1 : IVec S4096 32) (i : Fin 6144) (h : (w_main_v37 a1 (ix1 i)).toNat ≤ 4096) :
    w_main_v60 a1 (ix1 i) = w_main_v37 a1 (ix1 i) := by
  have h56 : w_main_v56 (ix1 i) = 0#32 := by
    unfold w_main_v56
    rw [broadcastInDim_scalar_apply]
    rfl
  have hlt : ¬ (IntOp.cmpi .slt (w_main_v37 a1 (ix1 i)) 0#32 = 1#1) := by
    rw [StableHlo.Predicate.slt_iff_toNat (by omega) (by decide)]
    simp
  show Scalar.select (IntOp.cmpi .slt (w_main_v37 a1 (ix1 i)) (w_main_v56 (ix1 i))) (w_main_v59 a1 (ix1 i)) (w_main_v37 a1 (ix1 i)) = _
  rw [h56]
  exact if_neg hlt

theorem v61_toInt (a1 : IVec S4096 32) (i : Fin 6144) (h : (w_main_v37 a1 (ix1 i)).toNat ≤ 4096) :
    (w_main_v61 a1 (ix2 i 0)).toInt = ((w_main_v37 a1 (ix1 i)).toNat : Int) := by
  have e : w_main_v61 a1 (ix2 i 0) = w_main_v60 a1 (ix1 i) := by
    unfold w_main_v61
    exact broadcastInDim_apply _ _ _ (ix2 i 0) (ix1 i) (fun a => match a with | ⟨0, _⟩ => rfl)
  rw [e, v60_eq_v37 a1 i h]
  exact StableHlo.Predicate.toInt_eq_toNat_of_lt (by omega)

/-- Row `n` of the result is any padded row scattered to `n`, provided all such rows agree. -/
theorem result_apply {F : FTy → Type} [FloatOps F] (a1 : IVec S4096 32) (p : FVec F S6144x1024 .f32) (n : Fin 4096) (j : Fin 1024)
    (v : F .f32) (hrange : ∀ i : Fin 6144, (w_main_v37 a1 (ix1 i)).toNat ≤ 4096)
    (hex : ∃ i : Fin 6144, w_main_v37 a1 (ix1 i) = BitVec.ofNat 32 n.val)
    (hall : ∀ i : Fin 6144, w_main_v37 a1 (ix1 i) = BitVec.ofNat 32 n.val → p (ix2 i j) = v) :
    w_main_v63 a1 p (ix2 n j) = v := by
  have hn := n.isLt

  have hslice : w_main_v63 a1 p (ix2 n j) = w_main_v62 a1 p (ix2 (⟨n.val, by omega⟩ : Fin 4097) j) := by
    unfold w_main_v63
    exact extractStridedSlice_apply _ _ _ (ix2 n j) (ix2 (⟨n.val, by omega⟩ : Fin 4097) j) (fun a => match a with
      | ⟨0, _⟩ => (Nat.zero_add _).symm
      | ⟨1, _⟩ => (Nat.zero_add _).symm)
  rw [hslice]
  unfold w_main_v62

  have hiff := fun (i : Fin 6144) (c : Fin 1024) =>
    ScatterFold.rowScatter_resultIdx_eq_some_iff scatter_S4097x1024_S6144x1_S6144x1024_1_0_0_1 rfl rfl rfl rfl
      (w_main_v61 a1) i c (ix2 (⟨n.val, by omega⟩ : Fin 4097) j)
  refine ScatterFold.scatter_set_apply _ _ _ _ _ _ ?_ ?_
  · obtain ⟨i, hi⟩ := hex
    refine ⟨ix2 i j, (hiff i j).2 ⟨?_, rfl⟩⟩
    rw [v61_toInt a1 i (hrange i), hi, BitVec.toNat_ofNat, Nat.mod_eq_of_lt (by omega)]
  · intro j' hj'
    rw [eq_ix2 j'] at hj' ⊢
    obtain ⟨h0, h1⟩ := (hiff (j' 0) (j' 1)).1 hj'
    rw [v61_toInt a1 (j' 0) (hrange (j' 0))] at h0
    have hw : w_main_v37 a1 (ix1 (j' 0)) = BitVec.ofNat 32 n.val := by
      apply BitVec.eq_of_toNat_eq
      rw [BitVec.toNat_ofNat, Nat.mod_eq_of_lt (by omega)]
      have h0' : ((w_main_v37 a1 (ix1 (j' 0))).toNat : Int) = (n.val : Int) := h0
      omega
    have hc : j' 1 = j := Fin.ext (show (j' 1).val = j.val from h1.symm)
    rw [hc]
    exact hall (j' 0) hw

end Cert.KernelIdeal

end
-- ==== Proof.Mlp.lean ====
import Idealize.ShloMosaic.PureOps.Ideal
import Idealize.ShloMosaic.Lib.ValueIdx

noncomputable section

open scoped BigOperators

namespace Cert.Mlp

open Idealize.ShloMosaic Idealize.ShloMosaic.ValueIdx

/-- Hidden unit `k` of segment `s` on token row `n`: max(x[n,·]·W1[s,k,·] + b1[s,k], 0). -/
def hid (x : FVec Ideal ⟨2, ![4096, 1024]⟩ .f32) (w1 : FVec Ideal ⟨3, ![16, 4096, 1024]⟩ .f32)
    (b1 : FVec Ideal ⟨2, ![16, 4096]⟩ .f32) (s : Fin 16) (n : Fin 4096) (k : Fin 4096) : EReal :=
  max ((∑ h : Fin 1024, x (ix2 n h) * w1 (ix3 s k h)) + b1 (ix2 s k)) 0

/-- Output feature `j` of segment `s` on token row `n`: hid[n,·]·W2[s,j,·] + b2[s,j]. -/
def out (x : FVec Ideal ⟨2, ![4096, 1024]⟩ .f32) (w1 : FVec Ideal ⟨3, ![16, 4096, 1024]⟩ .f32)
    (w2 : FVec Ideal ⟨3, ![16, 1024, 4096]⟩ .f32) (b1 : FVec Ideal ⟨2, ![16, 4096]⟩ .f32)
    (b2 : FVec Ideal ⟨2, ![16, 1024]⟩ .f32) (s : Fin 16) (n : Fin 4096) (j : Fin 1024) : EReal :=
  (∑ k : Fin 4096, hid x w1 b1 s n k * w2 (ix3 s j k)) + b2 (ix2 s j)

/-- Row `n`'s label as an index of the sixteen segments. -/
def segFin (seg : IVec ⟨1, ![4096]⟩ 32) (n : Fin 4096) : Fin 16 :=
  ⟨(seg (ix1 n)).toNat % 16, Nat.mod_lt _ (by decide)⟩

/-- The result: row `n` goes through the perceptron of its own segment. -/
def G (x : FVec Ideal ⟨2, ![4096, 1024]⟩ .f32) (seg : IVec ⟨1, ![4096]⟩ 32) (w1 : FVec Ideal ⟨3, ![16, 4096, 1024]⟩ .f32)
    (w2 : FVec Ideal ⟨3, ![16, 1024, 4096]⟩ .f32) (b1 : FVec Ideal ⟨2, ![16, 4096]⟩ .f32)
    (b2 : FVec Ideal ⟨2, ![16, 1024]⟩ .f32) : FVec Ideal ⟨2, ![4096, 1024]⟩ .f32 :=
  fun i => out x w1 w2 b1 b2 (segFin seg ⟨(i 0).val, idx2_lt0 i⟩) ⟨(i 0).val, idx2_lt0 i⟩ ⟨(i 1).val, idx2_lt1 i⟩

end Cert.Mlp

end
-- ==== Proof.KernelValue.lean ====
import proofs.«428696_j3496103379639_3_alg».proof.Proof.HostFns
import proofs.«428696_j3496103379639_3_alg».proof.Proof.Routing
import proofs.«428696_j3496103379639_3_alg».proof.Proof.Sort
import proofs.«428696_j3496103379639_3_alg».proof.Proof.Counts
import proofs.«428696_j3496103379639_3_alg».proof.Proof.Rows
import proofs.«428696_j3496103379639_3_alg».proof.Proof.Tokens
import proofs.«428696_j3496103379639_3_alg».proof.Proof.Scatter
import proofs.«428696_j3496103379639_3_alg».proof.Proof.Mlp
import proofs.«428696_j3496103379639_3_alg».proof.Proof.Tile
import Idealize.ShloMosaic.Lib.Pipeline.Value
import Idealize.ShloMosaic.Lib.ValueIdx
import Idealize.ShloMosaic.PureOps.Ideal

noncomputable section

namespace Cert.KernelIdeal

open Idealize.ShloMosaic Idealize.ShloMosaic.TcCoe Idealize.SL.Sem Idealize.ShloMosaic.ValueIdx

variable [Facts]
open Facts₀ Facts

open scoped BigOperators

theorem w1_apply (a2 : FVec Ideal S16x4096x1024 .f32) (y : S16x4096x1024.Idx) : w_main_v50 (F := Ideal) a2 y = a2 y := rfl
theorem w2_apply (a3 : FVec Ideal S16x1024x4096 .f32) (y : S16x1024x4096.Idx) : w_main_v51 (F := Ideal) a3 y = a3 y := rfl

theorem b1_apply (a4 : FVec Ideal S16x4096 .f32) (g : Fin 16) (k : Fin 4096) :
    w_main_v52 (F := Ideal) a4 (ix3 g (0 : Fin 1) k) = a4 (ix2 g k) := by
  show shapeCast S16x1x4096 a4 shapeCasts_S16x4096_S16x1x4096 (ix3 g (0 : Fin 1) k) = _
  refine shapeCast_apply a4 _ (ix3 g (0 : Fin 1) k) (ix2 g k) ?_
  rw [Shape.rowMajor_val_two, Shape.rowMajor_val_three]
  show g.val * 4096 + k.val = (g.val * 1 + 0) * 4096 + k.val
  omega

theorem b2_apply (a5 : FVec Ideal S16x1024 .f32) (g : Fin 16) (j : Fin 1024) :
    w_main_v53 (F := Ideal) a5 (ix3 g (0 : Fin 1) j) = a5 (ix2 g j) := by
  show shapeCast S16x1x1024 a5 shapeCasts_S16x1024_S16x1x1024 (ix3 g (0 : Fin 1) j) = _
  refine shapeCast_apply a5 _ (ix3 g (0 : Fin 1) j) (ix2 g j) ?_
  rw [Shape.rowMajor_val_two, Shape.rowMajor_val_three]
  show g.val * 1024 + j.val = (g.val * 1 + 0) * 1024 + j.val
  omega

theorem tile_eq_out (a0 : FVec Ideal S4096x1024 .f32) (a1 : IVec S4096 32) (a2 : FVec Ideal S16x4096x1024 .f32)
    (a3 : FVec Ideal S16x1024x4096 .f32) (a4 : FVec Ideal S16x4096 .f32) (a5 : FVec Ideal S16x1024 .f32)
    (g : Fin 16) (i : Fin 6144) (n : Fin 4096) (j : Fin 1024) (hn : tokenOf a1 i = n) :
    Cert.Tile.out (w_main_v49 (F := Ideal) a0 a1) (w_main_v50 (F := Ideal) a2) (w_main_v51 (F := Ideal) a3)
        (w_main_v52 (F := Ideal) a4) (w_main_v53 (F := Ideal) a5) g i j
      = Cert.Mlp.out a0 a2 a3 a4 a5 g n j := by
  unfold Cert.Tile.out Cert.Mlp.out Cert.Mlp.hid
  simp only [xpad_apply, hn, w1_apply, w2_apply, b1_apply, b2_apply]

variable (a1 : IVec S4096 32)

theorem sidx_le (i : Fin 6144) : (w_main_v37 a1 (ix1 i)).toNat ≤ 4096 := by
  by_cases hv : Route.valid (keyOf a1) i.val
  · rw [sidx_of_valid a1 i hv, BitVec.toNat_ofNat, Nat.mod_eq_of_lt (by have := (tokenOf a1 i).isLt; omega)]
    exact Nat.le_of_lt (tokenOf a1 i).isLt
  · rw [sidx_of_not_valid a1 i hv]; decide

theorem of_sidx_eq (i : Fin 6144) (n : Fin 4096) (h : w_main_v37 a1 (ix1 i) = BitVec.ofNat 32 n.val) :
    Route.valid (keyOf a1) i.val ∧ tokenOf a1 i = n := by
  by_cases hv : Route.valid (keyOf a1) i.val
  · refine ⟨hv, ?_⟩
    rw [sidx_of_valid a1 i hv] at h
    have h' := congrArg BitVec.toNat h
    rw [BitVec.toNat_ofNat, BitVec.toNat_ofNat, Nat.mod_eq_of_lt (by have := (tokenOf a1 i).isLt; omega),
      Nat.mod_eq_of_lt (by have := n.isLt; omega)] at h'
    exact Fin.ext h'
  · rw [sidx_of_not_valid a1 i hv] at h
    have h' := congrArg BitVec.toNat h
    rw [BitVec.toNat_ofNat, Nat.mod_eq_of_lt (by have := n.isLt; omega)] at h'
    have := n.isLt
    simp at h'
    omega

theorem group_eq (hseg : ∀ n : Fin 4096, (a1 (ix1 n)).toNat < 16) (i : Fin 6144) (hv : Route.valid (keyOf a1) i.val) :
    (w_main_v41 a1 (ix1 (⟨i.val / 128, by have := i.isLt; omega⟩ : Fin 48))).toNat = keyOf a1 (tokenOf a1 i) := by
  rw [table_toNat]
  show Route.segOf (keyOf a1) (128 * (i.val / 128)) = _
  rw [Route.segOf_tile]
  exact (Route.key_of_valid (keyOf a1) (sigma_bijective a1) hseg (sigma_sorted a1 hseg) i.val hv).symm

/-- Inside the label range the kernel program's result is the specification: each token is written by a valid padded row of its own segment, and every row written to it agrees. -/
theorem result_eq_G (a0 : FVec Ideal S4096x1024 .f32) (a2 : FVec Ideal S16x4096x1024 .f32)
    (a3 : FVec Ideal S16x1024x4096 .f32) (a4 : FVec Ideal S16x4096 .f32) (a5 : FVec Ideal S16x1024 .f32)
    (hseg : ∀ n : Fin 4096, (a1 (ix1 n)).toNat < 16) (p : FVec Ideal S6144x1024 .f32)
    (hp : ∀ (i : Fin 6144) (j : Fin 1024), p (ix2 i j) = Cert.Tile.out (w_main_v49 (F := Ideal) a0 a1) (w_main_v50 (F := Ideal) a2)
        (w_main_v51 (F := Ideal) a3) (w_main_v52 (F := Ideal) a4) (w_main_v53 (F := Ideal) a5)
        ⟨(w_main_v41 a1 (ix1 (⟨i.val / 128, by have := i.isLt; omega⟩ : Fin 48))).toNat % 16, Nat.mod_lt _ (by decide)⟩ i j) :
    w_main_v63 (F := Ideal) a1 p = Cert.Mlp.G a0 a1 a2 a3 a4 a5 := by
  funext y
  rw [eq_ix2 y]
  generalize hn : (⟨(y 0).val, idx2_lt0 y⟩ : Fin 4096) = n
  generalize hj : (⟨(y 1).val, idx2_lt1 y⟩ : Fin 1024) = j
  have hy : ix2 (y 0) (y 1) = (ix2 n j : S4096x1024.Idx) := by subst hn hj; rfl
  rw [hy]
  have hG : Cert.Mlp.G a0 a1 a2 a3 a4 a5 (ix2 n j) = Cert.Mlp.out a0 a2 a3 a4 a5 (Cert.Mlp.segFin a1 n) n j := rfl
  rw [hG]
  refine result_apply a1 p n j _ (sidx_le a1) ?_ ?_
  · obtain ⟨i, hi, hv, hσ⟩ := Route.exists_row (keyOf a1) (sigma_bijective a1) hseg (sigma_sorted a1 hseg) n
    refine ⟨⟨i, hi⟩, ?_⟩
    rw [sidx_of_valid a1 ⟨i, hi⟩ hv]
    exact congrArg (fun t : Fin 4096 => BitVec.ofNat 32 t.val) hσ
  · intro i hi
    obtain ⟨hv, hσ⟩ := of_sidx_eq a1 i n hi
    rw [hp i j]
    have hg : (⟨(w_main_v41 a1 (ix1 (⟨i.val / 128, by have := i.isLt; omega⟩ : Fin 48))).toNat % 16, Nat.mod_lt _ (by decide)⟩ : Fin 16)
        = Cert.Mlp.segFin a1 n := by
      apply Fin.ext
      show (w_main_v41 a1 (ix1 _)).toNat % 16 = (a1 (ix1 n)).toNat % 16
      rw [group_eq a1 hseg i hv, hσ]
      rfl
    rw [hg]
    exact tile_eq_out a0 a1 a2 a3 a4 a5 _ i n j hσ

end Cert.KernelIdeal

end
-- ==== Proof.KernelRun.lean ====
import proofs.«428696_j3496103379639_3_alg».proof.Proof.Gen.KernelIdeal.Frame
import proofs.«428696_j3496103379639_3_alg».proof.Proof.HostFns
import proofs.«428696_j3496103379639_3_alg».proof.Proof.HostRead
import proofs.«428696_j3496103379639_3_alg».proof.Proof.HostTail
import proofs.«428696_j3496103379639_3_alg».proof.Proof.TableRange
import proofs.«428696_j3496103379639_3_alg».proof.Proof.OkOfPre
import proofs.«428696_j3496103379639_3_alg».proof.Proof.Region
import proofs.«428696_j3496103379639_3_alg».proof.Proof.KernelValue
import proofs.«428696_j3496103379639_3_alg».proof.Proof.Mlp
import Idealize.ShloMosaic.Lib.ValueIdx

noncomputable section

namespace Cert.KernelIdeal.KernelRun

open Cert.KernelIdeal Cert.KernelIdeal.Gen Idealize.ShloMosaic Idealize.ShloMosaic.TcCoe Idealize.SL.Sem Idealize.ShloMosaic.ValueIdx

theorem ok {F : FTy → Type} [FloatOps F] (m : (ℓ : Loc nD τ sig) → Buf (Elt F) ℓ) : Gen.Ok m :=
  ok_of_table (Gen.tbl m) (fun t => by rw [Gen.V_tbl]; exact table_lt _ t)

theorem region_rows (m : (ℓ : Loc nD τ sig) → Buf (Elt Ideal) ℓ) (c : Dev nD) (i : Fin 6144) (j : Fin 1024) :
    (Gen.dats m (ok m) 0 c).arrAt 5 (Gen.cfgM m (ok m)).N (ix2 i j)
      = Cert.Tile.out (w_main_v49 (F := Ideal) (m ((c : Thread nD τ).loc main_arg0)) (m ((c : Thread nD τ).loc main_arg1)))
          (w_main_v50 (F := Ideal) (m ((c : Thread nD τ).loc main_arg2))) (w_main_v51 (F := Ideal) (m ((c : Thread nD τ).loc main_arg3)))
          (w_main_v52 (F := Ideal) (m ((c : Thread nD τ).loc main_arg4))) (w_main_v53 (F := Ideal) (m ((c : Thread nD τ).loc main_arg5)))
          ⟨(w_main_v41 (m ((c : Thread nD τ).loc main_arg1)) (ix1 (⟨i.val / 128, by have := i.isLt; omega⟩ : Fin 48))).toNat % 16, Nat.mod_lt _ (by decide)⟩ i j := by
  obtain rfl : c = 0 := Subsingleton.elim _ _
  rw [Cert.KernelIdeal.Region.region_value m (ok m) 0 i j, Gen.V_v49, Gen.V_v50, Gen.V_v51, Gen.V_v52, Gen.V_v53, Gen.V_tbl]

/-- Every fair run of the idealized kernel program ends with the specification in the result buffer and the arguments kept. -/
theorem run_value (m : (ℓ : Loc nD τ sig) → Buf (Elt Ideal) ℓ) (ρ : Dev nD → PrngReg)
    (hseg : ∀ (c : Dev nD) (n : Fin 4096), (m ((c.tc : Thread nD τ).loc main_arg1) (ix1 n)).toNat < 16) :
    θ_run defs (onTc (τ := τ) (main (F := Ideal))) ⟨m, fun _ => 0, ρ⟩ (fun r => ∀ c : Dev nD,
      r.2.mem ((c.tc : Thread nD τ).loc main_v63) = Cert.Mlp.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v63 (by decide : main_v63 ∈ Pipeline.restRefs sig spec0)).trans ((Gen.tail_v63 m (ok m) c).trans
        (result_eq_G (m ((c : Thread nD τ).loc main_arg1)) (m ((c : Thread nD τ).loc main_arg0)) (m ((c : Thread nD τ).loc main_arg2))
          (m ((c : Thread nD τ).loc main_arg3)) (m ((c : Thread nD τ).loc main_arg4)) (m ((c : Thread nD τ).loc main_arg5)) (hseg c)
          _ (region_rows m c)))),
      (((h c).2 main_arg0 (by decide : main_arg0 ∈ Pipeline.restRefs sig spec0)).trans (W_main_arg0 m (ok m) (dats m (ok m)) c)),
      (((h c).2 main_arg1 (by decide : main_arg1 ∈ Pipeline.restRefs sig spec0)).trans (W_main_arg1 m (ok m) (dats m (ok m)) c)),
      (((h c).2 main_arg2 (by decide : main_arg2 ∈ Pipeline.restRefs sig spec0)).trans (W_main_arg2 m (ok m) (dats m (ok m)) c)),
      (((h c).2 main_arg3 (by decide : main_arg3 ∈ Pipeline.restRefs sig spec0)).trans (W_main_arg3 m (ok m) (dats m (ok m)) c)),
      (((h c).2 main_arg4 (by decide : main_arg4 ∈ Pipeline.restRefs sig spec0)).trans (W_main_arg4 m (ok m) (dats m (ok m)) c)),
      (((h c).2 main_arg5 (by decide : main_arg5 ∈ Pipeline.restRefs sig spec0)).trans (W_main_arg5 m (ok m) (dats m (ok m)) c))⟩)
    (Gen.run_main m ρ (ok m))

end Cert.KernelIdeal.KernelRun

end
-- ==== Proof.PreDecode.lean ====
import proofs.«428696_j3496103379639_3_alg».proof.Defs
import proofs.«428696_j3496103379639_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.KernelIdeal

open Idealize.ShloMosaic Idealize.ShloMosaic.TcCoe Idealize.SL.Sem Idealize.ShloMosaic.ValueIdx

instance subsingleton_scalar_idx : Subsingleton Cert.Pre_finite_inputs.S_.Idx := ⟨fun a b => funext fun d => d.elim0⟩

theorem toNat_lt_of_signed_range (w : BitVec 32) (n : Nat) (hn : n < 2 ^ 31)
    (h0 : (0#32 : BitVec 32).toInt ≤ w.toInt) (h1 : w.toInt < (BitVec.ofNat 32 n).toInt) : w.toNat < n := by
  rw [StableHlo.Predicate.toInt_ofNat_small n hn] at h1
  rw [show (0#32 : BitVec 32).toInt = 0 from rfl] at h0
  rw [BitVec.toInt_eq_toNat_cond] at h0 h1
  have hw := w.isLt
  rcases Nat.lt_or_ge (2 * w.toNat) (2 ^ 32) with hc | hc
  · rw [if_pos hc] at h0 h1
    omega
  · rw [if_neg (Nat.not_lt.2 hc)] at h0 h1
    omega

/-- The precondition's two label conjuncts put every label word in [0, 16). -/
theorem seg_lt_of_pre (m : (ℓ : Loc Cert.KernelIdeal.nD Cert.KernelIdeal.τ Cert.KernelIdeal.sig) → Buf (Elt Ideal) ℓ)
    (h : Cert.Pre_KernelIdeal m) (c : Dev Cert.KernelIdeal.nD) (n : Fin 4096) :
    (m ((c.tc : Thread Cert.KernelIdeal.nD Cert.KernelIdeal.τ).loc Cert.KernelIdeal.main_arg1) (ix1 n)).toNat < 16 := by
  have e := congrFun (h c) Idealize.ShloMosaic.ValueIdx.ix0
  unfold Cert.Pre_finite_inputs.fn Cert.Pre_finite_inputs.fn_part1 at e
  dsimp only at e

  obtain ⟨e27, e30⟩ := IntOp.andi_eq_one.1 e
  obtain ⟨-, e26⟩ := IntOp.andi_eq_one.1 e27
  have hge := Host.reduce_andi_all _ _ _ _ _ e26 (ix1 n)
  have hlt := Host.reduce_andi_all _ _ _ _ _ e30 (ix1 n)
  exact toNat_lt_of_signed_range _ 16 (by decide) (IntOp.cmpi_sge.1 hge) (IntOp.cmpi_slt.1 hlt)

end Cert.KernelIdeal

end
-- ==== Proof.RefSegment.lean ====
import proofs.«428696_j3496103379639_3_alg».proof.Proof.Gen.ReferenceIdeal
import proofs.«428696_j3496103379639_3_alg».proof.Proof.Mlp
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.ReferenceIdeal.Seg

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F] (s : Fin 16)

theorem sl2 : S16x4096x1024.Slices ![s.val, 0, 0] S1x4096x1024 := ⟨rfl, fun a => match a with
  | ⟨0, _⟩ => by show s.val + 1 ≤ 16; omega
  | ⟨1, _⟩ => by show 0 + 4096 ≤ 4096; omega
  | ⟨2, _⟩ => by show 0 + 1024 ≤ 1024; omega⟩
theorem sl3 : S16x1024x4096.Slices ![s.val, 0, 0] S1x1024x4096 := ⟨rfl, fun a => match a with
  | ⟨0, _⟩ => by show s.val + 1 ≤ 16; omega
  | ⟨1, _⟩ => by show 0 + 1024 ≤ 1024; omega
  | ⟨2, _⟩ => by show 0 + 4096 ≤ 4096; omega⟩
theorem sl4 : S16x4096.Slices ![s.val, 0] S1x4096 := ⟨rfl, fun a => match a with
  | ⟨0, _⟩ => by show s.val + 1 ≤ 16; omega
  | ⟨1, _⟩ => by show 0 + 4096 ≤ 4096; omega⟩
theorem sl5 : S16x1024.Slices ![s.val, 0] S1x1024 := ⟨rfl, fun a => match a with
  | ⟨0, _⟩ => by show s.val + 1 ≤ 16; omega
  | ⟨1, _⟩ => by show 0 + 1024 ≤ 1024; omega⟩

/-- relu(x · W1[s]ᵀ + b1[s]), every token row. -/
def hid (x0 : FVec F S4096x1024 .f32) (x2 : FVec F S16x4096x1024 .f32) (x4 : FVec F S16x4096 .f32) :
    FVec F S4096x4096 .f32 :=
  maximumf
    (addf
      (Host.dotGeneral dot_S4096x1024_S1024x4096_S4096x4096_1_0_0_1_n_n none x0
        (transpose S1024x4096 [1, 0] (shapeCast _ (extractStridedSlice S1x4096x1024 ![s.val, 0, 0] x2 (sl2 s))
          shapeCasts_S1x4096x1024_S4096x1024) transposes_S4096x1024_S1024x4096_1_0))
      (broadcastInDim S4096x4096 ![0, 1] bcast_S1x4096_S4096x4096_0_1 (broadcastInDim S1x4096 ![1] bcast_S4096_S1x4096_1
        (shapeCast _ (extractStridedSlice S1x4096 ![s.val, 0] x4 (sl4 s)) shapeCasts_S1x4096_S4096))))
    (broadcastInDim S4096x4096 ![] bcast_S_S4096x4096 (constant S_ .f32 0x00000000#32))

/-- hid · W2[s]ᵀ + b2[s], kept on the rows labelled `s`, zero on the others. -/
def term (x0 : FVec F S4096x1024 .f32) (x1 : IVec S4096 32) (x2 : FVec F S16x4096x1024 .f32)
    (x3 : FVec F S16x1024x4096 .f32) (x4 : FVec F S16x4096 .f32) (x5 : FVec F S16x1024 .f32) : FVec F S4096x1024 .f32 :=
  select
    (broadcastInDim S4096x1024 ![0, 1] bcast_S4096x1_S4096x1024_0_1 (broadcastInDim S4096x1 ![0] bcast_S4096_S4096x1_0
      (cmpi .eq x1 (broadcastInDim S4096 ![] bcast_S_S4096 (constantI S_ 32 (BitVec.ofNat 32 s.val))))))
    (addf
      (Host.dotGeneral dot_S4096x4096_S4096x1024_S4096x1024_1_0_0_1_n_n none (hid s x0 x2 x4)
        (transpose S4096x1024 [1, 0] (shapeCast _ (extractStridedSlice S1x1024x4096 ![s.val, 0, 0] x3 (sl3 s))
          shapeCasts_S1x1024x4096_S1024x4096) transposes_S1024x4096_S4096x1024_1_0))
      (broadcastInDim S4096x1024 ![0, 1] bcast_S1x1024_S4096x1024_0_1 (broadcastInDim S1x1024 ![1] bcast_S1024_S1x1024_1
        (shapeCast _ (extractStridedSlice S1x1024 ![s.val, 0] x5 (sl5 s)) shapeCasts_S1x1024_S1024))))
    (broadcastInDim S4096x1024 ![] bcast_S_S4096x1024 (constant S_ .f32 0x00000000#32))

/-- The zero array plus the terms of segments `0 … k - 1`, added from left to right. -/
def upTo (x0 : FVec F S4096x1024 .f32) (x1 : IVec S4096 32) (x2 : FVec F S16x4096x1024 .f32)
    (x3 : FVec F S16x1024x4096 .f32) (x4 : FVec F S16x4096 .f32) (x5 : FVec F S16x1024 .f32) : ℕ → FVec F S4096x1024 .f32
  | 0 => broadcastInDim S4096x1024 ![] bcast_S_S4096x1024 (constant S_ .f32 0x00000000#32)
  | k + 1 => addf (upTo x0 x1 x2 x3 x4 x5 k) (if h : k < 16 then term ⟨k, h⟩ x0 x1 x2 x3 x4 x5
      else broadcastInDim S4096x1024 ![] bcast_S_S4096x1024 (constant S_ .f32 0x00000000#32))

theorem upTo_succ (x0 : FVec F S4096x1024 .f32) (x1 : IVec S4096 32) (x2 : FVec F S16x4096x1024 .f32)
    (x3 : FVec F S16x1024x4096 .f32) (x4 : FVec F S16x4096 .f32) (x5 : FVec F S16x1024 .f32) :
    upTo x0 x1 x2 x3 x4 x5 (s.val + 1) = addf (upTo x0 x1 x2 x3 x4 x5 s.val) (term s x0 x1 x2 x3 x4 x5) := by
  rw [upTo, dif_pos s.isLt]

theorem w1_at {α : Type} (x : S16x4096x1024.Idx → α) (b : Fin 1024) (a : Fin 4096) :
    transpose S1024x4096 [1, 0] (shapeCast _ (extractStridedSlice S1x4096x1024 ![s.val, 0, 0] x (sl2 s)) shapeCasts_S1x4096x1024_S4096x1024) transposes_S4096x1024_S1024x4096_1_0 (ix2 b a)
      = x (ix3 s a b) :=
  (transpose_apply [1, 0] _ transposes_S4096x1024_S1024x4096_1_0 (ix2 b a) (ix2 a b) (fun c => match c with
    | ⟨0, _⟩ => rfl
    | ⟨1, _⟩ => rfl)).trans <|
  (shapeCast_apply _ shapeCasts_S1x4096x1024_S4096x1024 (ix2 a b) (ix3 (0 : Fin 1) a b) (by
    rewrite [Shape.rowMajor_val_three, Shape.rowMajor_val_two]
    show (0 * 4096 + a.val) * 1024 + b.val = a.val * 1024 + b.val; omega)).trans <|
  extractStridedSlice_apply _ x (sl2 s) (ix3 (0 : Fin 1) a b) (ix3 s a b) (fun c => match c with
    | ⟨0, _⟩ => rfl
    | ⟨1, _⟩ => (Nat.zero_add _).symm
    | ⟨2, _⟩ => (Nat.zero_add _).symm)

theorem w2_at {α : Type} (x : S16x1024x4096.Idx → α) (b : Fin 4096) (a : Fin 1024) :
    transpose S4096x1024 [1, 0] (shapeCast _ (extractStridedSlice S1x1024x4096 ![s.val, 0, 0] x (sl3 s)) shapeCasts_S1x1024x4096_S1024x4096) transposes_S1024x4096_S4096x1024_1_0 (ix2 b a)
      = x (ix3 s a b) :=
  (transpose_apply [1, 0] _ transposes_S1024x4096_S4096x1024_1_0 (ix2 b a) (ix2 a b) (fun c => match c with
    | ⟨0, _⟩ => rfl
    | ⟨1, _⟩ => rfl)).trans <|
  (shapeCast_apply _ shapeCasts_S1x1024x4096_S1024x4096 (ix2 a b) (ix3 (0 : Fin 1) a b) (by
    rewrite [Shape.rowMajor_val_three, Shape.rowMajor_val_two]
    show (0 * 1024 + a.val) * 4096 + b.val = a.val * 4096 + b.val; omega)).trans <|
  extractStridedSlice_apply _ x (sl3 s) (ix3 (0 : Fin 1) a b) (ix3 s a b) (fun c => match c with
    | ⟨0, _⟩ => rfl
    | ⟨1, _⟩ => (Nat.zero_add _).symm
    | ⟨2, _⟩ => (Nat.zero_add _).symm)

theorem b1_at {α : Type} (x : S16x4096.Idx → α) (n : Fin 4096) (a : Fin 4096) :
    broadcastInDim S4096x4096 ![0, 1] bcast_S1x4096_S4096x4096_0_1 (broadcastInDim S1x4096 ![1] bcast_S4096_S1x4096_1
      (shapeCast _ (extractStridedSlice S1x4096 ![s.val, 0] x (sl4 s)) shapeCasts_S1x4096_S4096)) (ix2 n a) = x (ix2 s a) :=
  (broadcastInDim_apply _ bcast_S1x4096_S4096x4096_0_1 _ (ix2 n a) (ix2 (0 : Fin 1) a) (fun c => match c with
    | ⟨0, _⟩ => (if_pos rfl).symm
    | ⟨1, _⟩ => by show a.val = if (4096 : Nat) = 1 then 0 else a.val; rw [if_neg (by decide)])).trans <|
  (broadcastInDim_apply _ bcast_S4096_S1x4096_1 _ (ix2 (0 : Fin 1) a) (ix1 a) (fun c => match c with
    | ⟨0, _⟩ => by show a.val = if (4096 : Nat) = 1 then 0 else a.val; rw [if_neg (by decide)])).trans <|
  (shapeCast_apply _ shapeCasts_S1x4096_S4096 (ix1 a) (ix2 (0 : Fin 1) a) (by
    rewrite [Shape.rowMajor_val_two, Shape.rowMajor_val_one]
    show 0 * 4096 + a.val = a.val; omega)).trans <|
  extractStridedSlice_apply _ x (sl4 s) (ix2 (0 : Fin 1) a) (ix2 s a) (fun c => match c with
    | ⟨0, _⟩ => rfl
    | ⟨1, _⟩ => (Nat.zero_add _).symm)

theorem b2_at {α : Type} (x : S16x1024.Idx → α) (n : Fin 4096) (a : Fin 1024) :
    broadcastInDim S4096x1024 ![0, 1] bcast_S1x1024_S4096x1024_0_1 (broadcastInDim S1x1024 ![1] bcast_S1024_S1x1024_1
      (shapeCast _ (extractStridedSlice S1x1024 ![s.val, 0] x (sl5 s)) shapeCasts_S1x1024_S1024)) (ix2 n a) = x (ix2 s a) :=
  (broadcastInDim_apply _ bcast_S1x1024_S4096x1024_0_1 _ (ix2 n a) (ix2 (0 : Fin 1) a) (fun c => match c with
    | ⟨0, _⟩ => (if_pos rfl).symm
    | ⟨1, _⟩ => by show a.val = if (1024 : Nat) = 1 then 0 else a.val; rw [if_neg (by decide)])).trans <|
  (broadcastInDim_apply _ bcast_S1024_S1x1024_1 _ (ix2 (0 : Fin 1) a) (ix1 a) (fun c => match c with
    | ⟨0, _⟩ => by show a.val = if (1024 : Nat) = 1 then 0 else a.val; rw [if_neg (by decide)])).trans <|
  (shapeCast_apply _ shapeCasts_S1x1024_S1024 (ix1 a) (ix2 (0 : Fin 1) a) (by
    rewrite [Shape.rowMajor_val_two, Shape.rowMajor_val_one]
    show 0 * 1024 + a.val = a.val; omega)).trans <|
  extractStridedSlice_apply _ x (sl5 s) (ix2 (0 : Fin 1) a) (ix2 s a) (fun c => match c with
    | ⟨0, _⟩ => rfl
    | ⟨1, _⟩ => (Nat.zero_add _).symm)

theorem dot1_at (l : FVec Ideal S4096x1024 .f32) (r : FVec Ideal S1024x4096 .f32) (n : Fin 4096) (j : Fin 4096) :
    Host.dotGeneral dot_S4096x1024_S1024x4096_S4096x4096_1_0_0_1_n_n none l r (ix2 n j) = ∑ k : Fin 1024, l (ix2 n k) * r (ix2 k j) := by
  have l0 : ∀ i q, (dot_S4096x1024_S1024x4096_S4096x4096_1_0_0_1_n_n.lhsIdx i q 0).val = (i 0).val := fun i q => by
    unfold DotDims.lhsIdx
    rw [dif_neg (show ¬(0 : Fin S4096x1024.rank) ∈ dot_S4096x1024_S1024x4096_S4096x4096_1_0_0_1_n_n.lhsBatch by decide),
      dif_pos (show (0 : Fin S4096x1024.rank) ∈ dot_S4096x1024_S1024x4096_S4096x4096_1_0_0_1_n_n.lhsNonContracting by decide)]
    rfl
  have r1 : ∀ i q, (dot_S4096x1024_S1024x4096_S4096x4096_1_0_0_1_n_n.rhsIdx i q 1).val = (i 1).val := fun i q => by
    unfold DotDims.rhsIdx
    rw [dif_neg (show ¬(1 : Fin S1024x4096.rank) ∈ dot_S4096x1024_S1024x4096_S4096x4096_1_0_0_1_n_n.rhsBatch by decide),
      dif_pos (show (1 : Fin S1024x4096.rank) ∈ dot_S4096x1024_S1024x4096_S4096x4096_1_0_0_1_n_n.rhsNonContracting by decide)]
    rfl
  simp only [Host.dotGeneral]
  rw [Ideal.dotGeneral_apply, ← Equiv.sum_comp (contrEquiv1 dot_S4096x1024_S1024x4096_S4096x4096_1_0_0_1_n_n 1024 rfl rfl).symm]
  refine Finset.sum_congr rfl fun k _ => ?_
  have hk := contrEquiv1_symm_val dot_S4096x1024_S1024x4096_S4096x4096_1_0_0_1_n_n 1024 rfl rfl k
  have el : dot_S4096x1024_S1024x4096_S4096x4096_1_0_0_1_n_n.lhsIdx (ix2 n j) ((contrEquiv1 dot_S4096x1024_S1024x4096_S4096x4096_1_0_0_1_n_n 1024 rfl rfl).symm k) = ix2 n k := funext fun a => Fin.ext (by
    match a with
    | ⟨0, _⟩ => exact l0 _ _
    | ⟨1, _⟩ => exact (dot_S4096x1024_S1024x4096_S4096x4096_1_0_0_1_n_n.lhsIdx_val_of_single rfl _ _).trans hk)
  have er : dot_S4096x1024_S1024x4096_S4096x4096_1_0_0_1_n_n.rhsIdx (ix2 n j) ((contrEquiv1 dot_S4096x1024_S1024x4096_S4096x4096_1_0_0_1_n_n 1024 rfl rfl).symm k) = ix2 k j := funext fun a => Fin.ext (by
    match a with
    | ⟨0, _⟩ => exact (dot_S4096x1024_S1024x4096_S4096x4096_1_0_0_1_n_n.rhsIdx_val_of_single rfl _ _).trans hk
    | ⟨1, _⟩ => exact r1 _ _)
  rw [el, er]

theorem dot2_at (l : FVec Ideal S4096x4096 .f32) (r : FVec Ideal S4096x1024 .f32) (n : Fin 4096) (j : Fin 1024) :
    Host.dotGeneral dot_S4096x4096_S4096x1024_S4096x1024_1_0_0_1_n_n none l r (ix2 n j) = ∑ k : Fin 4096, l (ix2 n k) * r (ix2 k j) := by
  have l0 : ∀ i q, (dot_S4096x4096_S4096x1024_S4096x1024_1_0_0_1_n_n.lhsIdx i q 0).val = (i 0).val := fun i q => by
    unfold DotDims.lhsIdx
    rw [dif_neg (show ¬(0 : Fin S4096x4096.rank) ∈ dot_S4096x4096_S4096x1024_S4096x1024_1_0_0_1_n_n.lhsBatch by decide),
      dif_pos (show (0 : Fin S4096x4096.rank) ∈ dot_S4096x4096_S4096x1024_S4096x1024_1_0_0_1_n_n.lhsNonContracting by decide)]
    rfl
  have r1 : ∀ i q, (dot_S4096x4096_S4096x1024_S4096x1024_1_0_0_1_n_n.rhsIdx i q 1).val = (i 1).val := fun i q => by
    unfold DotDims.rhsIdx
    rw [dif_neg (show ¬(1 : Fin S4096x1024.rank) ∈ dot_S4096x4096_S4096x1024_S4096x1024_1_0_0_1_n_n.rhsBatch by decide),
      dif_pos (show (1 : Fin S4096x1024.rank) ∈ dot_S4096x4096_S4096x1024_S4096x1024_1_0_0_1_n_n.rhsNonContracting by decide)]
    rfl
  simp only [Host.dotGeneral]
  rw [Ideal.dotGeneral_apply, ← Equiv.sum_comp (contrEquiv1 dot_S4096x4096_S4096x1024_S4096x1024_1_0_0_1_n_n 4096 rfl rfl).symm]
  refine Finset.sum_congr rfl fun k _ => ?_
  have hk := contrEquiv1_symm_val dot_S4096x4096_S4096x1024_S4096x1024_1_0_0_1_n_n 4096 rfl rfl k
  have el : dot_S4096x4096_S4096x1024_S4096x1024_1_0_0_1_n_n.lhsIdx (ix2 n j) ((contrEquiv1 dot_S4096x4096_S4096x1024_S4096x1024_1_0_0_1_n_n 4096 rfl rfl).symm k) = ix2 n k := funext fun a => Fin.ext (by
    match a with
    | ⟨0, _⟩ => exact l0 _ _
    | ⟨1, _⟩ => exact (dot_S4096x4096_S4096x1024_S4096x1024_1_0_0_1_n_n.lhsIdx_val_of_single rfl _ _).trans hk)
  have er : dot_S4096x4096_S4096x1024_S4096x1024_1_0_0_1_n_n.rhsIdx (ix2 n j) ((contrEquiv1 dot_S4096x4096_S4096x1024_S4096x1024_1_0_0_1_n_n 4096 rfl rfl).symm k) = ix2 k j := funext fun a => Fin.ext (by
    match a with
    | ⟨0, _⟩ => exact (dot_S4096x4096_S4096x1024_S4096x1024_1_0_0_1_n_n.rhsIdx_val_of_single rfl _ _).trans hk
    | ⟨1, _⟩ => exact r1 _ _)
  rw [el, er]

theorem zero_at {t : Shape} (h : S_.BroadcastsInDim t ![]) (i : t.Idx) :
    broadcastInDim t ![] h (constant (F := Ideal) S_ .f32 0x00000000#32) i = 0 :=
  (broadcastInDim_apply _ h _ i ix0 (fun a => a.elim0)).trans Ideal.ofBits_zero_f32

variable (x0 : FVec Ideal S4096x1024 .f32) (x1 : IVec S4096 32) (x2 : FVec Ideal S16x4096x1024 .f32)
  (x3 : FVec Ideal S16x1024x4096 .f32) (x4 : FVec Ideal S16x4096 .f32) (x5 : FVec Ideal S16x1024 .f32)

theorem hid_at (n k : Fin 4096) : hid (F := Ideal) s x0 x2 x4 (ix2 n k) = Cert.Mlp.hid x0 x2 x4 s n k := by
  unfold hid Cert.Mlp.hid
  rw [maximumf_apply, addf_apply, dot1_at, b1_at]
  exact congrArg₂ max (congrArg (· + _) (Finset.sum_congr rfl fun h _ => by rw [w1_at])) (zero_at _ _)

theorem mask_at (n : Fin 4096) (j : Fin 1024) :
    broadcastInDim S4096x1024 ![0, 1] bcast_S4096x1_S4096x1024_0_1 (broadcastInDim S4096x1 ![0] bcast_S4096_S4096x1_0
      (cmpi .eq x1 (broadcastInDim S4096 ![] bcast_S_S4096 (constantI S_ 32 (BitVec.ofNat 32 s.val))))) (ix2 n j)
      = IntOp.cmpi .eq (x1 (ix1 n)) (BitVec.ofNat 32 s.val) :=
  (broadcastInDim_apply _ bcast_S4096x1_S4096x1024_0_1 _ (ix2 n j) (ix2 n (0 : Fin 1)) (fun c => match c with
    | ⟨0, _⟩ => by show n.val = if (4096 : Nat) = 1 then 0 else n.val; rw [if_neg (by decide)]
    | ⟨1, _⟩ => (if_pos rfl).symm)).trans <|
  broadcastInDim_apply _ bcast_S4096_S4096x1_0 _ (ix2 n (0 : Fin 1)) (ix1 n) (fun c => match c with
    | ⟨0, _⟩ => by show n.val = if (4096 : Nat) = 1 then 0 else n.val; rw [if_neg (by decide)])

/-- A select on "the label word is `t`": the value where the word, read unsigned, is `t`; 0 elsewhere. -/
theorem select_label (w : BitVec 32) (t : ℕ) (ht : t < 16) (Y : EReal) :
    Scalar.select (IntOp.cmpi .eq w (BitVec.ofNat 32 t)) (Y : Ideal .f32) (0 : EReal)
      = if w.toNat = t then Y else 0 := by
  by_cases h : w.toNat = t
  · have hw : w = BitVec.ofNat 32 t := BitVec.eq_of_toNat_eq (by rw [BitVec.toNat_ofNat, h]; omega)
    rw [IntOp.cmpi_eq.mpr hw, select_one, if_pos h]
  · have hw : ¬ IntOp.cmpi .eq w (BitVec.ofNat 32 t) = 1#1 := fun hc => h (by
      rw [IntOp.cmpi_eq.mp hc, BitVec.toNat_ofNat]; omega)
    rw [eq_zero_of_ne_one hw, select_zero, if_neg h]

/-- The mask compares the row's label word with `s`; relu is max · 0; the two products are the specification's sums. -/
theorem term_at (n : Fin 4096) (j : Fin 1024) :
    term (F := Ideal) s x0 x1 x2 x3 x4 x5 (ix2 n j)
      = if (x1 (ix1 n)).toNat = s.val then Cert.Mlp.out x0 x2 x3 x4 x5 s n j else 0 := by
  unfold term Cert.Mlp.out
  rw [select_apply, addf_apply, dot2_at, b2_at, mask_at, zero_at]
  refine (select_label _ s.val s.isLt _).trans (if_congr Iff.rfl ?_ rfl)
  exact congrArg (· + _) (Finset.sum_congr rfl fun k _ => by rw [hid_at, w2_at])

/-- The sum up to segment `k` holds row `n`'s own perceptron if its label is below `k`, else 0 (0 + a = a = a + 0 on the extended reals). -/
theorem upTo_at (n : Fin 4096) (j : Fin 1024) : ∀ k : ℕ, k ≤ 16 →
    upTo (F := Ideal) x0 x1 x2 x3 x4 x5 k (ix2 n j)
      = if (x1 (ix1 n)).toNat < k then Cert.Mlp.out x0 x2 x3 x4 x5 (Cert.Mlp.segFin x1 n) n j else 0
  | 0, _ => by rw [if_neg (Nat.not_lt_zero _), upTo]; exact zero_at _ _
  | k + 1, hk => by
    rw [← Fin.val_mk (Nat.lt_of_succ_le hk), upTo_succ, addf_apply, upTo_at n j k (Nat.le_of_succ_le hk), term_at]
    rcases Nat.lt_trichotomy (x1 (ix1 n)).toNat k with h | h | h
    · rw [if_pos h, if_neg (Nat.ne_of_lt h), if_pos (Nat.lt_succ_of_lt h), add_zero]
    · have e : Cert.Mlp.segFin x1 n = ⟨k, Nat.lt_of_succ_le hk⟩ := Fin.ext (by
        show (x1 (ix1 n)).toNat % 16 = k; rw [h]; exact Nat.mod_eq_of_lt (Nat.lt_of_succ_le hk))
      rw [if_neg (Nat.lt_irrefl _ ∘ (h ▸ ·)), if_pos h, if_pos (h ▸ Nat.lt_succ_self _), zero_add, e]
    · rw [if_neg (Nat.not_lt_of_gt h), if_neg (Nat.ne_of_gt h), if_neg (Nat.not_lt_of_ge h), zero_add]

/-- Inside the label range the reference's sum is the specification. -/
theorem ref_value (hseg : ∀ n : Fin 4096, (x1 (ix1 n)).toNat < 16) :
    upTo (F := Ideal) x0 x1 x2 x3 x4 x5 16 = Cert.Mlp.G x0 x1 x2 x3 x4 x5 := by
  funext i
  obtain ⟨n, j, rfl⟩ : ∃ (n : Fin 4096) (j : Fin 1024), i = ix2 n j := ⟨i 0, i 1, eq_ix2 i⟩
  rw [upTo_at x0 x1 x2 x3 x4 x5 n j 16 (Nat.le_refl _), if_pos (hseg n)]
  rfl

end Cert.ReferenceIdeal.Seg

end
-- ==== Proof.RefRunOps.lean ====
import proofs.«428696_j3496103379639_3_alg».proof.Proof.RefSegment

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- A typed reference to a tensor of shape `sh`. -/
abbrev B (sh : Shape) (e : EltTy := .f32) := TRef sig ⟨sh, e⟩

variable (s : Fin 16) (acc : B S4096x1024)
    (w1 : B S1x4096x1024) (w1r : B S4096x1024) (w1t : B S1024x4096) (xw : B S4096x4096)
    (b1 : B S1x4096) (b1r : B S4096) (b1b : B S1x4096) (b1f pre : B S4096x4096) (relu : fn_relu.Bufs)
    (w2 : B S1x1024x4096) (w2r : B S1024x4096) (w2t hw : B S4096x1024)
    (b2 : B S1x1024) (b2r : B S1024) (b2b : B S1x1024) (b2f y : B S4096x1024)
    (c : B S_ .i32) (cb : B S4096 .i32) (eq : B S4096 .i1) (eqc : B S4096x1 .i1) (z : B S_)
    (wh : fn_where.Bufs) (out : B S4096x1024)

/-- Segment `s`: h = relu(arg0 · arg2[s]ᵀ + arg4[s]), y = h · arg3[s]ᵀ + arg5[s], the rows labelled `s` kept, and that added to `acc`. -/
def segment : List (HloOp τ sig (Elt F)) :=
  [ TRef.unary (.of main_arg2 : B S16x4096x1024) w1 (extractStridedSlice S1x4096x1024 ![s.val, 0, 0] · (Seg.sl2 s)),
    TRef.reshape w1 w1r rfl shapeCasts_S1x4096x1024_S4096x1024,
    TRef.unary w1r w1t (transpose S1024x4096 [1, 0] · transposes_S4096x1024_S1024x4096_1_0),
    TRef.binary (.of main_arg0 : B S4096x1024) w1t xw (Host.dotGeneral dot_S4096x1024_S1024x4096_S4096x4096_1_0_0_1_n_n none),
    TRef.unary (.of main_arg4 : B S16x4096) b1 (extractStridedSlice S1x4096 ![s.val, 0] · (Seg.sl4 s)),
    TRef.reshape b1 b1r rfl shapeCasts_S1x4096_S4096,
    TRef.unary b1r b1b (broadcastInDim S1x4096 ![1] bcast_S4096_S1x4096_1),
    TRef.unary b1b b1f (broadcastInDim S4096x4096 ![0, 1] bcast_S1x4096_S4096x4096_0_1),
    TRef.binary xw b1f pre addf,
    TRef.nullary relu.cst (constant S_ .f32 0x00000000#32),
    TRef.unary relu.cst relu.v0 (broadcastInDim S4096x4096 ![] bcast_S_S4096x4096),
    TRef.binary pre relu.v0 relu.v1 maximumf,
    TRef.unary (.of main_arg3 : B S16x1024x4096) w2 (extractStridedSlice S1x1024x4096 ![s.val, 0, 0] · (Seg.sl3 s)),
    TRef.reshape w2 w2r rfl shapeCasts_S1x1024x4096_S1024x4096,
    TRef.unary w2r w2t (transpose S4096x1024 [1, 0] · transposes_S1024x4096_S4096x1024_1_0),
    TRef.binary relu.v1 w2t hw (Host.dotGeneral dot_S4096x4096_S4096x1024_S4096x1024_1_0_0_1_n_n none),
    TRef.unary (.of main_arg5 : B S16x1024) b2 (extractStridedSlice S1x1024 ![s.val, 0] · (Seg.sl5 s)),
    TRef.reshape b2 b2r rfl shapeCasts_S1x1024_S1024,
    TRef.unary b2r b2b (broadcastInDim S1x1024 ![1] bcast_S1024_S1x1024_1),
    TRef.unary b2b b2f (broadcastInDim S4096x1024 ![0, 1] bcast_S1x1024_S4096x1024_0_1),
    TRef.binary hw b2f y addf,
    TRef.nullary c (constantI S_ 32 (BitVec.ofNat 32 s.val)),
    TRef.unary c cb (broadcastInDim S4096 ![] bcast_S_S4096),
    TRef.binary (.of main_arg1 : B S4096 .i32) cb eq (cmpi .eq),
    TRef.unary eq eqc (broadcastInDim S4096x1 ![0] bcast_S4096_S4096x1_0),
    TRef.nullary z (constant S_ .f32 0x00000000#32),
    TRef.unary eqc wh.v0 (broadcastInDim S4096x1024 ![0, 1] bcast_S4096x1_S4096x1024_0_1),
    TRef.unary z wh.v1 (broadcastInDim S4096x1024 ![] bcast_S_S4096x1024),
    TRef.ternary wh.v0 y wh.v1 wh.v2 select,
    TRef.binary acc wh.v2 out addf ]

variable {s acc w1 w1r w1t xw b1 b1r b1b b1f pre relu w2 w2r w2t hw b2 b2r b2b b2f y c cb eq eqc z wh out}

theorem segment_sub : (segment (F := F) s acc w1 w1r w1t xw b1 b1r b1b b1f pre relu w2 w2r w2t hw b2 b2r b2b b2f y c cb eq eqc z wh out).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem segment_fresh : ∀ op ∈ segment (F := F) s acc w1 w1r w1t xw b1 b1r b1b b1f pre relu w2 w2r w2t hw b2 b2r b2b b2f y c cb eq eqc z wh out, op.fresh = ∅ := by
  intro _ h; (repeat (cases h with | head => rfl | tail _ h => ?_)); exact nomatch h

def seg0 : List (HloOp τ sig (Elt F)) :=
  TRef.nullary (.of main_cst : B S_) (constant S_ .f32 0x00000000#32) ::
  TRef.unary (.of main_cst : B S_) (.of main_v0 : B S4096x1024) (broadcastInDim S4096x1024 ![] bcast_S_S4096x1024) ::
  segment 0 (.of main_v0) (.of main_v1) (.of main_v2) (.of main_v3) (.of main_v4) (.of main_v5) (.of main_v6) (.of main_v7) (.of main_v8) (.of main_v9) main_call0 (.of main_v11) (.of main_v12) (.of main_v13) (.of main_v14) (.of main_v15) (.of main_v16) (.of main_v17) (.of main_v18) (.of main_v19) (.of main_c) (.of main_v20) (.of main_v21) (.of main_v22) (.of main_cst_0) main_call1 (.of main_v24)

theorem seg0_sub : (seg0 (F := F)).Forall fun op => op.bufs ⊆ tcRefs τ sig :=
  ⟨nullary_bufs_sub .., unary_bufs_sub .., segment_sub⟩

theorem seg0_fresh : ∀ op ∈ seg0 (F := F), op.fresh = ∅
  | _, .head _ => rfl
  | _, .tail _ (.head _) => rfl
  | _, .tail _ (.tail _ h) => segment_fresh _ h

def seg1 : List (HloOp τ sig (Elt F)) :=
  segment 1 (.of main_v24) (.of main_v25) (.of main_v26) (.of main_v27) (.of main_v28) (.of main_v29) (.of main_v30) (.of main_v31) (.of main_v32) (.of main_v33) main_call2 (.of main_v35) (.of main_v36) (.of main_v37) (.of main_v38) (.of main_v39) (.of main_v40) (.of main_v41) (.of main_v42) (.of main_v43) (.of main_c_1) (.of main_v44) (.of main_v45) (.of main_v46) (.of main_cst_2) main_call3 (.of main_v48)

def seg2 : List (HloOp τ sig (Elt F)) :=
  segment 2 (.of main_v48) (.of main_v49) (.of main_v50) (.of main_v51) (.of main_v52) (.of main_v53) (.of main_v54) (.of main_v55) (.of main_v56) (.of main_v57) main_call4 (.of main_v59) (.of main_v60) (.of main_v61) (.of main_v62) (.of main_v63) (.of main_v64) (.of main_v65) (.of main_v66) (.of main_v67) (.of main_c_3) (.of main_v68) (.of main_v69) (.of main_v70) (.of main_cst_4) main_call5 (.of main_v72)

def seg3 : List (HloOp τ sig (Elt F)) :=
  segment 3 (.of main_v72) (.of main_v73) (.of main_v74) (.of main_v75) (.of main_v76) (.of main_v77) (.of main_v78) (.of main_v79) (.of main_v80) (.of main_v81) main_call6 (.of main_v83) (.of main_v84) (.of main_v85) (.of main_v86) (.of main_v87) (.of main_v88) (.of main_v89) (.of main_v90) (.of main_v91) (.of main_c_5) (.of main_v92) (.of main_v93) (.of main_v94) (.of main_cst_6) main_call7 (.of main_v96)

def seg4 : List (HloOp τ sig (Elt F)) :=
  segment 4 (.of main_v96) (.of main_v97) (.of main_v98) (.of main_v99) (.of main_v100) (.of main_v101) (.of main_v102) (.of main_v103) (.of main_v104) (.of main_v105) main_call8 (.of main_v107) (.of main_v108) (.of main_v109) (.of main_v110) (.of main_v111) (.of main_v112) (.of main_v113) (.of main_v114) (.of main_v115) (.of main_c_7) (.of main_v116) (.of main_v117) (.of main_v118) (.of main_cst_8) main_call9 (.of main_v120)

def seg5 : List (HloOp τ sig (Elt F)) :=
  segment 5 (.of main_v120) (.of main_v121) (.of main_v122) (.of main_v123) (.of main_v124) (.of main_v125) (.of main_v126) (.of main_v127) (.of main_v128) (.of main_v129) main_call10 (.of main_v131) (.of main_v132) (.of main_v133) (.of main_v134) (.of main_v135) (.of main_v136) (.of main_v137) (.of main_v138) (.of main_v139) (.of main_c_9) (.of main_v140) (.of main_v141) (.of main_v142) (.of main_cst_10) main_call11 (.of main_v144)

def seg6 : List (HloOp τ sig (Elt F)) :=
  segment 6 (.of main_v144) (.of main_v145) (.of main_v146) (.of main_v147) (.of main_v148) (.of main_v149) (.of main_v150) (.of main_v151) (.of main_v152) (.of main_v153) main_call12 (.of main_v155) (.of main_v156) (.of main_v157) (.of main_v158) (.of main_v159) (.of main_v160) (.of main_v161) (.of main_v162) (.of main_v163) (.of main_c_11) (.of main_v164) (.of main_v165) (.of main_v166) (.of main_cst_12) main_call13 (.of main_v168)

def seg7 : List (HloOp τ sig (Elt F)) :=
  segment 7 (.of main_v168) (.of main_v169) (.of main_v170) (.of main_v171) (.of main_v172) (.of main_v173) (.of main_v174) (.of main_v175) (.of main_v176) (.of main_v177) main_call14 (.of main_v179) (.of main_v180) (.of main_v181) (.of main_v182) (.of main_v183) (.of main_v184) (.of main_v185) (.of main_v186) (.of main_v187) (.of main_c_13) (.of main_v188) (.of main_v189) (.of main_v190) (.of main_cst_14) main_call15 (.of main_v192)

def seg8 : List (HloOp τ sig (Elt F)) :=
  segment 8 (.of main_v192) (.of main_v193) (.of main_v194) (.of main_v195) (.of main_v196) (.of main_v197) (.of main_v198) (.of main_v199) (.of main_v200) (.of main_v201) main_call16 (.of main_v203) (.of main_v204) (.of main_v205) (.of main_v206) (.of main_v207) (.of main_v208) (.of main_v209) (.of main_v210) (.of main_v211) (.of main_c_15) (.of main_v212) (.of main_v213) (.of main_v214) (.of main_cst_16) main_call17 (.of main_v216)

def seg9 : List (HloOp τ sig (Elt F)) :=
  segment 9 (.of main_v216) (.of main_v217) (.of main_v218) (.of main_v219) (.of main_v220) (.of main_v221) (.of main_v222) (.of main_v223) (.of main_v224) (.of main_v225) main_call18 (.of main_v227) (.of main_v228) (.of main_v229) (.of main_v230) (.of main_v231) (.of main_v232) (.of main_v233) (.of main_v234) (.of main_v235) (.of main_c_17) (.of main_v236) (.of main_v237) (.of main_v238) (.of main_cst_18) main_call19 (.of main_v240)

def seg10 : List (HloOp τ sig (Elt F)) :=
  segment 10 (.of main_v240) (.of main_v241) (.of main_v242) (.of main_v243) (.of main_v244) (.of main_v245) (.of main_v246) (.of main_v247) (.of main_v248) (.of main_v249) main_call20 (.of main_v251) (.of main_v252) (.of main_v253) (.of main_v254) (.of main_v255) (.of main_v256) (.of main_v257) (.of main_v258) (.of main_v259) (.of main_c_19) (.of main_v260) (.of main_v261) (.of main_v262) (.of main_cst_20) main_call21 (.of main_v264)

def seg11 : List (HloOp τ sig (Elt F)) :=
  segment 11 (.of main_v264) (.of main_v265) (.of main_v266) (.of main_v267) (.of main_v268) (.of main_v269) (.of main_v270) (.of main_v271) (.of main_v272) (.of main_v273) main_call22 (.of main_v275) (.of main_v276) (.of main_v277) (.of main_v278) (.of main_v279) (.of main_v280) (.of main_v281) (.of main_v282) (.of main_v283) (.of main_c_21) (.of main_v284) (.of main_v285) (.of main_v286) (.of main_cst_22) main_call23 (.of main_v288)

def seg12 : List (HloOp τ sig (Elt F)) :=
  segment 12 (.of main_v288) (.of main_v289) (.of main_v290) (.of main_v291) (.of main_v292) (.of main_v293) (.of main_v294) (.of main_v295) (.of main_v296) (.of main_v297) main_call24 (.of main_v299) (.of main_v300) (.of main_v301) (.of main_v302) (.of main_v303) (.of main_v304) (.of main_v305) (.of main_v306) (.of main_v307) (.of main_c_23) (.of main_v308) (.of main_v309) (.of main_v310) (.of main_cst_24) main_call25 (.of main_v312)

def seg13 : List (HloOp τ sig (Elt F)) :=
  segment 13 (.of main_v312) (.of main_v313) (.of main_v314) (.of main_v315) (.of main_v316) (.of main_v317) (.of main_v318) (.of main_v319) (.of main_v320) (.of main_v321) main_call26 (.of main_v323) (.of main_v324) (.of main_v325) (.of main_v326) (.of main_v327) (.of main_v328) (.of main_v329) (.of main_v330) (.of main_v331) (.of main_c_25) (.of main_v332) (.of main_v333) (.of main_v334) (.of main_cst_26) main_call27 (.of main_v336)

def seg14 : List (HloOp τ sig (Elt F)) :=
  segment 14 (.of main_v336) (.of main_v337) (.of main_v338) (.of main_v339) (.of main_v340) (.of main_v341) (.of main_v342) (.of main_v343) (.of main_v344) (.of main_v345) main_call28 (.of main_v347) (.of main_v348) (.of main_v349) (.of main_v350) (.of main_v351) (.of main_v352) (.of main_v353) (.of main_v354) (.of main_v355) (.of main_c_27) (.of main_v356) (.of main_v357) (.of main_v358) (.of main_cst_28) main_call29 (.of main_v360)

def seg15 : List (HloOp τ sig (Elt F)) :=
  segment 15 (.of main_v360) (.of main_v361) (.of main_v362) (.of main_v363) (.of main_v364) (.of main_v365) (.of main_v366) (.of main_v367) (.of main_v368) (.of main_v369) main_call30 (.of main_v371) (.of main_v372) (.of main_v373) (.of main_v374) (.of main_v375) (.of main_v376) (.of main_v377) (.of main_v378) (.of main_v379) (.of main_c_29) (.of main_v380) (.of main_v381) (.of main_v382) (.of main_cst_30) main_call31 (.of main_v384)

end Cert.ReferenceIdeal.RunH

end
-- ==== Proof.RefRun.lean ====
import proofs.«428696_j3496103379639_3_alg».proof.Proof.RefRunOps
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] {x0 : FVec F S4096x1024 .f32} {x1 : IVec S4096 32} {x2 : FVec F S16x4096x1024 .f32}
  {x3 : FVec F S16x1024x4096 .f32} {x4 : FVec F S16x4096 .f32} {x5 : FVec F S16x1024 .f32}

/-- @main's six arguments, as the contents `V` hold them. -/
def args (V : Valuation τ sig (Elt F)) :=
  (V (Proc.devRef .tc main_arg0), V (Proc.devRef .tc main_arg1), V (Proc.devRef .tc main_arg2),
    V (Proc.devRef .tc main_arg3), V (Proc.devRef .tc main_arg4), V (Proc.devRef .tc main_arg5))

/-- The list adds segment `k`'s term to what `g` reads, leaves the sum where `g'` reads it, and keeps the arguments. -/
def Adds (k : Fin 16) (ops : List (HloOp τ sig (Elt F))) (g g' : Valuation τ sig (Elt F) → FVec F S4096x1024 .f32) : Prop :=
  ∀ V, (g' (after ops V), args (after ops V))
    = (addf (g V) (Seg.term k (V (Proc.devRef .tc main_arg0)) (V (Proc.devRef .tc main_arg1)) (V (Proc.devRef .tc main_arg2))
        (V (Proc.devRef .tc main_arg3)) (V (Proc.devRef .tc main_arg4)) (V (Proc.devRef .tc main_arg5))), args V)

/-- Such a list carries the sum of the first `k` terms to the sum of the first `k + 1`. -/
theorem step {k : Fin 16} {ops : List (HloOp τ sig (Elt F))} {g g' : Valuation τ sig (Elt F) → FVec F S4096x1024 .f32}
    (ha : Adds k ops g g') {V : Valuation τ sig (Elt F)}
    (h : g V = Seg.upTo x0 x1 x2 x3 x4 x5 k.val ∧ args V = (x0, x1, x2, x3, x4, x5)) :
    g' (after ops V) = Seg.upTo x0 x1 x2 x3 x4 x5 (k.val + 1) ∧ args (after ops V) = (x0, x1, x2, x3, x4, x5) := by
  obtain ⟨hg, hx⟩ := h
  cases hx
  have e := ha V
  rw [hg, ← Seg.upTo_succ] at e
  exact ⟨congrArg Prod.fst e, congrArg Prod.snd e⟩

theorem adds0 : Adds (F := F) 0 seg0 (fun _ => broadcastInDim S4096x1024 ![] bcast_S_S4096x1024 (constant S_ .f32 0x00000000#32))
    (· (Proc.devRef .tc main_v24)) := fun V => by
  simp only [seg0, segment, args]; after_results_simp; rfl
theorem adds1 : Adds (F := F) 1 seg1 (· (Proc.devRef .tc main_v24)) (· (Proc.devRef .tc main_v48)) := fun V => by
  simp only [seg1, segment, args]; after_results_simp; rfl
theorem adds2 : Adds (F := F) 2 seg2 (· (Proc.devRef .tc main_v48)) (· (Proc.devRef .tc main_v72)) := fun V => by
  simp only [seg2, segment, args]; after_results_simp; rfl
theorem adds3 : Adds (F := F) 3 seg3 (· (Proc.devRef .tc main_v72)) (· (Proc.devRef .tc main_v96)) := fun V => by
  simp only [seg3, segment, args]; after_results_simp; rfl
theorem adds4 : Adds (F := F) 4 seg4 (· (Proc.devRef .tc main_v96)) (· (Proc.devRef .tc main_v120)) := fun V => by
  simp only [seg4, segment, args]; after_results_simp; rfl
theorem adds5 : Adds (F := F) 5 seg5 (· (Proc.devRef .tc main_v120)) (· (Proc.devRef .tc main_v144)) := fun V => by
  simp only [seg5, segment, args]; after_results_simp; rfl
theorem adds6 : Adds (F := F) 6 seg6 (· (Proc.devRef .tc main_v144)) (· (Proc.devRef .tc main_v168)) := fun V => by
  simp only [seg6, segment, args]; after_results_simp; rfl
theorem adds7 : Adds (F := F) 7 seg7 (· (Proc.devRef .tc main_v168)) (· (Proc.devRef .tc main_v192)) := fun V => by
  simp only [seg7, segment, args]; after_results_simp; rfl
theorem adds8 : Adds (F := F) 8 seg8 (· (Proc.devRef .tc main_v192)) (· (Proc.devRef .tc main_v216)) := fun V => by
  simp only [seg8, segment, args]; after_results_simp; rfl
theorem adds9 : Adds (F := F) 9 seg9 (· (Proc.devRef .tc main_v216)) (· (Proc.devRef .tc main_v240)) := fun V => by
  simp only [seg9, segment, args]; after_results_simp; rfl
theorem adds10 : Adds (F := F) 10 seg10 (· (Proc.devRef .tc main_v240)) (· (Proc.devRef .tc main_v264)) := fun V => by
  simp only [seg10, segment, args]; after_results_simp; rfl
theorem adds11 : Adds (F := F) 11 seg11 (· (Proc.devRef .tc main_v264)) (· (Proc.devRef .tc main_v288)) := fun V => by
  simp only [seg11, segment, args]; after_results_simp; rfl
theorem adds12 : Adds (F := F) 12 seg12 (· (Proc.devRef .tc main_v288)) (· (Proc.devRef .tc main_v312)) := fun V => by
  simp only [seg12, segment, args]; after_results_simp; rfl
theorem adds13 : Adds (F := F) 13 seg13 (· (Proc.devRef .tc main_v312)) (· (Proc.devRef .tc main_v336)) := fun V => by
  simp only [seg13, segment, args]; after_results_simp; rfl
theorem adds14 : Adds (F := F) 14 seg14 (· (Proc.devRef .tc main_v336)) (· (Proc.devRef .tc main_v360)) := fun V => by
  simp only [seg14, segment, args]; after_results_simp; rfl
theorem adds15 : Adds (F := F) 15 seg15 (· (Proc.devRef .tc main_v360)) (· (Proc.devRef .tc main_v384)) := fun V => by
  simp only [seg15, segment, args]; after_results_simp; rfl

/-- @main's 482 operations, in order. -/
def ops : List (HloOp τ sig (Elt F)) :=
  seg0 (F := F) ++ (seg1 (F := F) ++ (seg2 (F := F) ++ (seg3 (F := F) ++ (seg4 (F := F) ++ (seg5 (F := F) ++ (seg6 (F := F) ++ (seg7 (F := F) ++ (seg8 (F := F) ++ (seg9 (F := F) ++ (seg10 (F := F) ++ (seg11 (F := F) ++ (seg12 (F := F) ++ (seg13 (F := F) ++ (seg14 (F := F) ++ (seg15 (F := F))))))))))))))))

set_option maxRecDepth 8192 in
theorem main_eq (c : Dev nD) : main (F := F) c = seq (ops (F := F)) := by chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  simp only [ops, List.forall_append]
  exact ⟨seg0_sub, segment_sub, segment_sub, segment_sub, segment_sub, segment_sub, segment_sub, segment_sub, segment_sub, segment_sub, segment_sub, segment_sub, segment_sub, segment_sub, segment_sub, segment_sub⟩

theorem ops_fresh : ∀ op ∈ ops (F := F), op.fresh = ∅ := by
  simp only [ops, List.forall_mem_append]
  exact ⟨seg0_fresh, segment_fresh, segment_fresh, segment_fresh, segment_fresh, segment_fresh, segment_fresh, segment_fresh, segment_fresh, segment_fresh, segment_fresh, segment_fresh, segment_fresh, segment_fresh, segment_fresh, segment_fresh⟩

/-- Sixteen steps: from the arguments in place to the sum of all sixteen terms in `main_v384`. -/
theorem after_ops {V : Valuation τ sig (Elt F)} (h : args V = (x0, x1, x2, x3, x4, x5)) :
    after (ops (F := F)) V (Proc.devRef .tc main_v384) = Seg.upTo x0 x1 x2 x3 x4 x5 16 ∧ args (after (ops (F := F)) V) = (x0, x1, x2, x3, x4, x5) := by
  simp only [ops, after_append]
  exact step adds15 (step adds14 (step adds13 (step adds12 (step adds11 (step adds10 (step adds9 (step adds8 (step adds7 (step adds6 (step adds5 (step adds4 (step adds3 (step adds2 (step adds1 (step adds0 ⟨rfl, h⟩)))))))))))))))

/-- Every weakly fair execution of @main ends with the sum of the sixteen terms of the launch's arguments in the result buffer and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v384) = Seg.upTo (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨hv, hx⟩ := after_ops (F := F) (V := launchContents m c) rfl
      simp only [args, Prod.mk.injEq] at hx
      simp only [h c]
      exact ⟨hv, hx⟩)
    (run_seq scopedRefs_eq scopedSems_eq defs main (fun _ => ops) main_eq (fun _ => ops_sub) m ρ (fun _ => ops_fresh))

end Cert.ReferenceIdeal.RunH

end
-- ==== Proof.lean ====
import proofs.«428696_j3496103379639_3_alg».proof.Defs
import proofs.«428696_j3496103379639_3_alg».proof.Proof.Gen.Kernel
import proofs.«428696_j3496103379639_3_alg».proof.Proof.Gen.Kernel.Frame
import proofs.«428696_j3496103379639_3_alg».proof.Proof.Gen.KernelIdeal
import proofs.«428696_j3496103379639_3_alg».proof.Proof.Gen.KernelIdeal.Frame
import proofs.«428696_j3496103379639_3_alg».proof.Proof.Gen.ReferenceIdeal
import proofs.«428696_j3496103379639_3_alg».proof.Proof.Gen.Pre_finite_inputs
import proofs.«428696_j3496103379639_3_alg».proof.Proof.KernelRun
import proofs.«428696_j3496103379639_3_alg».proof.Proof.PreDecode
import proofs.«428696_j3496103379639_3_alg».proof.Proof.RefRun
import proofs.«428696_j3496103379639_3_alg».proof.Proof.RefSegment
import proofs.«428696_j3496103379639_3_alg».proof.Proof.Mlp
import Idealize.ShloMosaic.Adequacy
import Idealize.ShloMosaic.Init

noncomputable section

namespace Cert.Proof

open Idealize.ShloMosaic Idealize.SL.Sem

/-- The word-level program computes the same table of tile segments as the idealized one; its words are below 16. -/
theorem frame_k : Cert.frame_Kernel := fun m ρ _ => Cert.Kernel.Gen.frame m ρ (Cert.KernelIdeal.KernelRun.ok m)

theorem frame_ki : Cert.frame_KernelIdeal := fun m ρ _ => Cert.KernelIdeal.Gen.frame m ρ (Cert.KernelIdeal.KernelRun.ok m)

theorem frame_ri : Cert.frame_ReferenceIdeal := fun m ρ _ =>
  (θ_run Cert.ReferenceIdeal.defs _ _).mono (fun _ h c => (h c).2) (Cert.ReferenceIdeal.RunH.run (F := Ideal) m ρ)

/-- Both idealized programs end with the specification `Mlp.G` of the arguments in the result buffer. -/
theorem algebraic : Cert.algebraic_KernelIdeal_ReferenceIdeal := by
  intro m ρ m' ρ' hpre hagree
  have hseg := fun c n => Cert.KernelIdeal.seg_lt_of_pre m hpre c n
  refine ⟨_, Cert.KernelIdeal.KernelRun.run_value m ρ hseg, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2.1, (hagree c).2.2.2.2.1, (hagree c).2.2.2.2.2]
  exact Cert.ReferenceIdeal.Seg.ref_value _ _ _ _ _ _ (hseg c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
